-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v102) = v3 c
          ∧ r.2.mem ((c.tc : Thread Cert.ReferenceIdeal.nD Cert.ReferenceIdeal.τ).loc Cert.ReferenceIdeal.main_v107) = v4 c
          ∧ r.2.mem ((c.tc : Thread Cert.ReferenceIdeal.nD Cert.ReferenceIdeal.τ).loc Cert.ReferenceIdeal.main_v112) = v5 c
          ∧ r.2.mem ((c.tc : Thread Cert.ReferenceIdeal.nD Cert.ReferenceIdeal.τ).loc Cert.ReferenceIdeal.main_v117) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S128x64 : Shape := ⟨2, ![128, 64]⟩
abbrev S128 : Shape := ⟨1, ![128]⟩
abbrev S21844x128 : Shape := ⟨2, ![21844, 128]⟩
abbrev S7x128x128 : Shape := ⟨3, ![7, 128, 128]⟩
abbrev S7x128 : Shape := ⟨2, ![7, 128]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S21844x128 : S_.BroadcastsInDim S21844x128 (![] : Fin 0 → Fin S21844x128.rank)
  reducesTo_S21844x128_S_d0_1 : S21844x128.ReducesTo [0, 1] S_
  bcast_S_S7x128x128 : S_.BroadcastsInDim S7x128x128 (![] : Fin 0 → Fin S7x128x128.rank)
  reducesTo_S7x128x128_S_d0_1_2 : S7x128x128.ReducesTo [0, 1, 2] S_
  bcast_S_S7x128 : S_.BroadcastsInDim S7x128 (![] : Fin 0 → Fin S7x128.rank)
  reducesTo_S7x128_S_d0_1 : S7x128.ReducesTo [0, 1] S_

variable [Facts]

def fn_part1 {F : FTy → Type} [FloatOps F] (main_arg4 : FVec F S7x128x128 .f32) (main_arg5 : FVec F S7x128 .f32) (main_v13 : IVec S_ 1) (main_v16 : IVec S21844x128 1) : IVec S_ 1 :=
  let main_c_5 : IVec S_ 1 := constantI S_ 1 1#1
  let main_v17 : IVec S_ 1 := (fun x v => Host.reduce IntOp.andi x v reducesTo_S21844x128_S_d0_1 h_S_) main_v16 main_c_5
  let main_v18 : IVec S_ 1 := andi main_v13 main_v17
  let main_v19 : FVec F S7x128x128 .f32 := Host.absf main_arg4
  let main_cst_6 : FVec F S_ .f32 := constant S_ .f32 0x7F800000#32
  let main_v20 : FVec F S7x128x128 .f32 := broadcastInDim S7x128x128 ![] bcast_S_S7x128x128 main_cst_6
  let main_v21 : IVec S7x128x128 1 := cmpf .olt main_v19 main_v20
  let main_c_7 : IVec S_ 1 := constantI S_ 1 1#1
  let main_v22 : IVec S_ 1 := (fun x v => Host.reduce IntOp.andi x v reducesTo_S7x128x128_S_d0_1_2 h_S_) main_v21 main_c_7
  let main_v23 : IVec S_ 1 := andi main_v18 main_v22
  let main_v24 : FVec F S7x128 .f32 := Host.absf main_arg5
  let main_cst_8 : FVec F S_ .f32 := constant S_ .f32 0x7F800000#32
  let main_v25 : FVec F S7x128 .f32 := broadcastInDim S7x128 ![] bcast_S_S7x128 main_cst_8
  let main_v26 : IVec S7x128 1 := cmpf .olt main_v24 main_v25
  let main_c_9 : IVec S_ 1 := constantI S_ 1 1#1
  let main_v27 : IVec S_ 1 := (fun x v => Host.reduce IntOp.andi x v reducesTo_S7x128_S_d0_1 h_S_) main_v26 main_c_9
  let main_v28 : IVec S_ 1 := andi main_v23 main_v27
  main_v28

def fn {F : FTy → Type} [FloatOps F] (main_arg0 : FVec F S4096x64 .f32) (main_arg1 : FVec F S128x64 .f32) (main_arg2 : FVec F S128 .f32) (main_arg3 : FVec F S21844x128 .f32) (main_arg4 : FVec F S7x128x128 .f32) (main_arg5 : FVec F S7x128 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S21844x128 .f32 := Host.absf main_arg3
  let main_cst_4 : FVec F S_ .f32 := constant S_ .f32 0x7F800000#32
  let main_v15 : FVec F S21844x128 .f32 := broadcastInDim S21844x128 ![] bcast_S_S21844x128 main_cst_4
  let main_v16 : IVec S21844x128 1 := cmpf .olt main_v14 main_v15
  fn_part1 (F := F) main_arg4 main_arg5 main_v13 main_v16
-- ==== Kernel.lean ====
abbrev S4096x64 : Shape := ⟨2, ![4096, 64]⟩
abbrev S128x64 : Shape := ⟨2, ![128, 64]⟩
abbrev S128 : Shape := ⟨1, ![128]⟩
abbrev S21844x128 : Shape := ⟨2, ![21844, 128]⟩
abbrev S7x128x128 : Shape := ⟨3, ![7, 128, 128]⟩
abbrev S7x128 : Shape := ⟨2, ![7, 128]⟩
abbrev S128x21844 : Shape := ⟨2, ![128, 21844]⟩
abbrev S7x128x1 : Shape := ⟨3, ![7, 128, 1]⟩
abbrev S128x4 : Shape := ⟨2, ![128, 4]⟩
abbrev S128x16 : Shape := ⟨2, ![128, 16]⟩
abbrev S128x256 : Shape := ⟨2, ![128, 256]⟩
abbrev S128x1024 : Shape := ⟨2, ![128, 1024]⟩
abbrev S128x4096 : Shape := ⟨2, ![128, 4096]⟩
abbrev S128x16384 : Shape := ⟨2, ![128, 16384]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩
abbrev S64x128 : Shape := ⟨2, ![64, 128]⟩
abbrev S1x128 : Shape := ⟨2, ![1, 128]⟩
abbrev S4096x4 : Shape := ⟨2, ![4096, 4]⟩
abbrev S4096x16 : Shape := ⟨2, ![4096, 16]⟩
abbrev S4096x256 : Shape := ⟨2, ![4096, 256]⟩
abbrev S4096x1024 : Shape := ⟨2, ![4096, 1024]⟩
abbrev S4096x4096 : Shape := ⟨2, ![4096, 4096]⟩
abbrev S4096x16384 : Shape := ⟨2, ![4096, 16384]⟩
abbrev S128x1x4 : Shape := ⟨3, ![128, 1, 4]⟩
abbrev S128x1x1 : Shape := ⟨3, ![128, 1, 1]⟩
abbrev S128x4x4 : Shape := ⟨3, ![128, 4, 4]⟩
abbrev S128x4x1 : Shape := ⟨3, ![128, 4, 1]⟩
abbrev S128x16x4 : Shape := ⟨3, ![128, 16, 4]⟩
abbrev S128x16x1 : Shape := ⟨3, ![128, 16, 1]⟩
abbrev S128x64x4 : Shape := ⟨3, ![128, 64, 4]⟩
abbrev S128x64x1 : Shape := ⟨3, ![128, 64, 1]⟩

abbrev nBuf : Space → Nat
  | .hbm => 24
  | .vmem => 35
  | .smem => 0
  | _ => 0

abbrev bufTy : (tb : Table) → Fin (tcTables nBuf tb) → BufTy
  | .hbm, ⟨0, _⟩ => ⟨S4096x64, .f32⟩
  | .hbm, ⟨1, _⟩ => ⟨S128x64, .f32⟩
  | .hbm, ⟨2, _⟩ => ⟨S128, .f32⟩
  | .hbm, ⟨3, _⟩ => ⟨S21844x128, .f32⟩
  | .hbm, ⟨4, _⟩ => ⟨S7x128x128, .f32⟩
  | .hbm, ⟨5, _⟩ => ⟨S7x128, .f32⟩
  | .hbm, ⟨6, _⟩ => ⟨S128x21844, .f32⟩
  | .hbm, ⟨7, _⟩ => ⟨S7x128x1, .f32⟩
  | .hbm, ⟨8, _⟩ => ⟨S128x4, .bf16⟩
  | .hbm, ⟨9, _⟩ => ⟨S128x16, .bf16⟩
  | .hbm, ⟨10, _⟩ => ⟨S128x64, .bf16⟩
  | .hbm, ⟨11, _⟩ => ⟨S128x256, .bf16⟩
  | .hbm, ⟨12, _⟩ => ⟨S128x1024, .bf16⟩
  | .hbm, ⟨13, _⟩ => ⟨S128x4096, .bf16⟩
  | .hbm, ⟨14, _⟩ => ⟨S128x16384, .bf16⟩
  | .hbm, ⟨15, _⟩ => ⟨S64x128, .f32⟩
  | .hbm, ⟨16, _⟩ => ⟨S1x128, .f32⟩
  | .hbm, ⟨17, _⟩ => ⟨S4096x4, .f32⟩
  | .hbm, ⟨18, _⟩ => ⟨S4096x16, .f32⟩
  | .hbm, ⟨19, _⟩ => ⟨S4096x64, .f32⟩
  | .hbm, ⟨20, _⟩ => ⟨S4096x256, .f32⟩
  | .hbm, ⟨21, _⟩ => ⟨S4096x1024, .f32⟩
  | .hbm, ⟨22, _⟩ => ⟨S4096x4096, .f32⟩
  | .hbm, ⟨23, _⟩ => ⟨S4096x16384, .f32⟩
  | .local _ .vmem, ⟨0, _⟩ => ⟨S128x21844, .f32⟩
  | .local _ .vmem, ⟨1, _⟩ => ⟨S7x128x128, .f32⟩
  | .local _ .vmem, ⟨2, _⟩ => ⟨S7x128x1, .f32⟩
  | .local _ .vmem, ⟨3, _⟩ => ⟨S128x4, .bf16⟩
  | .local _ .vmem, ⟨4, _⟩ => ⟨S128x16, .bf16⟩
  | .local _ .vmem, ⟨5, _⟩ => ⟨S128x64, .bf16⟩
  | .local _ .vmem, ⟨6, _⟩ => ⟨S128x256, .bf16⟩
  | .local _ .vmem, ⟨7, _⟩ => ⟨S128x1024, .bf16⟩
  | .local _ .vmem, ⟨8, _⟩ => ⟨S128x4096, .bf16⟩
  | .local _ .vmem, ⟨9, _⟩ => ⟨S128x16384, .bf16⟩
  | .local _ .vmem, ⟨10, _⟩ => ⟨S128x64, .f32⟩
  | .local _ .vmem, ⟨11, _⟩ => ⟨S128x64, .f32⟩
  | .local _ .vmem, ⟨12, _⟩ => ⟨S64x128, .f32⟩
  | .local _ .vmem, ⟨13, _⟩ => ⟨S1x128, .f32⟩
  | .local _ .vmem, ⟨14, _⟩ => ⟨S128x4, .bf16⟩
  | .local _ .vmem, ⟨15, _⟩ => ⟨S128x16, .bf16⟩
  | .local _ .vmem, ⟨16, _⟩ => ⟨S128x64, .bf16⟩
  | .local _ .vmem, ⟨17, _⟩ => ⟨S128x256, .bf16⟩
  | .local _ .vmem, ⟨18, _⟩ => ⟨S128x1024, .bf16⟩
  | .local _ .vmem, ⟨19, _⟩ => ⟨S128x4096, .bf16⟩
  | .local _ .vmem, ⟨20, _⟩ => ⟨S128x16384, .bf16⟩
  | .local _ .vmem, ⟨21, _⟩ => ⟨S128x4, .f32⟩
  | .local _ .vmem, ⟨22, _⟩ => ⟨S128x4, .f32⟩
  | .local _ .vmem, ⟨23, _⟩ => ⟨S128x16, .f32⟩
  | .local _ .vmem, ⟨24, _⟩ => ⟨S128x16, .f32⟩
  | .local _ .vmem, ⟨25, _⟩ => ⟨S128x64, .f32⟩
  | .local _ .vmem, ⟨26, _⟩ => ⟨S128x64, .f32⟩
  | .local _ .vmem, ⟨27, _⟩ => ⟨S128x256, .f32⟩
  | .local _ .vmem, ⟨28, _⟩ => ⟨S128x256, .f32⟩
  | .local _ .vmem, ⟨29, _⟩ => ⟨S128x1024, .f32⟩
  | .local _ .vmem, ⟨30, _⟩ => ⟨S128x1024, .f32⟩
  | .local _ .vmem, ⟨31, _⟩ => ⟨S128x4096, .f32⟩
  | .local _ .vmem, ⟨32, _⟩ => ⟨S128x4096, .f32⟩
  | .local _ .vmem, ⟨33, _⟩ => ⟨S128x16384, .f32⟩
  | .local _ .vmem, ⟨34, _⟩ => ⟨S128x16384, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev main_v5_6 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg11_1 : Ref sig .tc := ⟨.vmem, 24, rfl⟩
abbrev cc1_stg12_0 : Ref sig .tc := ⟨.vmem, 25, rfl⟩
abbrev cc1_stg12_1 : Ref sig .tc := ⟨.vmem, 26, rfl⟩
abbrev cc1_stg13_0 : Ref sig .tc := ⟨.vmem, 27, rfl⟩
abbrev cc1_stg13_1 : Ref sig .tc := ⟨.vmem, 28, rfl⟩
abbrev cc1_stg14_0 : Ref sig .tc := ⟨.vmem, 29, rfl⟩
abbrev cc1_stg14_1 : Ref sig .tc := ⟨.vmem, 30, rfl⟩
abbrev cc1_stg15_0 : Ref sig .tc := ⟨.vmem, 31, rfl⟩
abbrev cc1_stg15_1 : Ref sig .tc := ⟨.vmem, 32, rfl⟩
abbrev cc1_stg16_0 : Ref sig .tc := ⟨.vmem, 33, rfl⟩
abbrev cc1_stg16_1 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem10_1 : DmaSem sig := 22
abbrev cc1_sem11_0 : DmaSem sig := 23
abbrev cc1_sem11_1 : DmaSem sig := 24
abbrev cc1_sem12_0 : DmaSem sig := 25
abbrev cc1_sem12_1 : DmaSem sig := 26
abbrev cc1_sem13_0 : DmaSem sig := 27
abbrev cc1_sem13_1 : DmaSem sig := 28
abbrev cc1_sem14_0 : DmaSem sig := 29
abbrev cc1_sem14_1 : DmaSem sig := 30
abbrev cc1_sem15_0 : DmaSem sig := 31
abbrev cc1_sem15_1 : DmaSem sig := 32
abbrev cc1_sem16_0 : DmaSem sig := 33
abbrev cc1_sem16_1 : DmaSem sig := 34

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x21844 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7x128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x16384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x4 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x16 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x4096 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x16384 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S128x4 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S128x16 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S128x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S128x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S128x1024 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S128x4096 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S128x16384 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

class Facts₀ : Prop where
  transposes_S21844x128_S128x21844_1_0 : S21844x128.Transposes [1, 0] S128x21844
  bcast_S7x128_S7x128x1_0_1 : S7x128.BroadcastsInDim S7x128x1 (![0, 1] : Fin 2 → Fin S7x128x1.rank)
  inb_S128x21844_S128x4_0_0 : ∀ a, (![0, 0] : Fin 2 → Nat) a + S128x4.size a ≤ S128x21844.size a
  h_S128x4 : 0 < S128x4.numel
  shapeCasts_S128x4_S128x4 : S128x4.ShapeCasts S128x4
  bitsLt_bf16_f32 : FTy.bits .bf16 < FTy.bits .f32
  inb_S7x128x128_S1x128x128_0_0_0 : ∀ a, (![0, 0, 0] : Fin 3 → Nat) a + S1x128x128.size a ≤ S7x128x128.size a
  h_S1x128x128 : 0 < S1x128x128.numel
  shapeCasts_S1x128x128_S128x128 : S1x128x128.ShapeCasts S128x128
  inb_S7x128x1_S1x128x1_0_0_0 : ∀ a, (![0, 0, 0] : Fin 3 → Nat) a + S1x128x1.size a ≤ S7x128x1.size a
  h_S1x128x1 : 0 < S1x128x1.numel
  shapeCasts_S1x128x1_S128x1 : S1x128x1.ShapeCasts S128x1
  broadcasts_S128x1_S128x4 : S128x1.Broadcasts S128x4
  inb_S128x4_S128x4_0_0 : ∀ a, (![0, 0] : Fin 2 → Nat) a + S128x4.size a ≤ S128x4.size a
  packedbf16_S128x4_S128x4_0_0 : (Rect.unit (s := S128x4) ![0, 0] S128x4.size inb_S128x4_S128x4_0_0).PackedRows (EltTy.packing .bf16)
  inb_S128x21844_S128x16_0_4 : ∀ a, (![0, 4] : Fin 2 → Nat) a + S128x16.size a ≤ S128x21844.size a
  h_S128x16 : 0 < S128x16.numel
  shapeCasts_S128x16_S128x16 : S128x16.ShapeCasts S128x16
  inb_S7x128x128_S1x128x128_1_0_0 : ∀ a, (![1, 0, 0] : Fin 3 → Nat) a + S1x128x128.size a ≤ S7x128x128.size a
  inb_S7x128x1_S1x128x1_1_0_0 : ∀ a, (![1, 0, 0] : Fin 3 → Nat) a + S1x128x1.size a ≤ S7x128x1.size a
  broadcasts_S128x1_S128x16 : S128x1.Broadcasts S128x16
  inb_S128x16_S128x16_0_0 : ∀ a, (![0, 0] : Fin 2 → Nat) a + S128x16.size a ≤ S128x16.size a
  packedbf16_S128x16_S128x16_0_0 : (Rect.unit (s := S128x16) ![0, 0] S128x16.size inb_S128x16_S128x16_0_0).PackedRows (EltTy.packing .bf16)
  inb_S128x21844_S128x64_0_20 : ∀ a, (![0, 20] : Fin 2 → Nat) a + S128x64.size a ≤ S128x21844.size a
  h_S128x64 : 0 < S128x64.numel
  shapeCasts_S128x64_S128x64 : S128x64.ShapeCasts S128x64
  inb_S7x128x128_S1x128x128_2_0_0 : ∀ a, (![2, 0, 0] : Fin 3 → Nat) a + S1x128x128.size a ≤ S7x128x128.size a
  inb_S7x128x1_S1x128x1_2_0_0 : ∀ a, (![2, 0, 0] : Fin 3 → Nat) a + S1x128x1.size a ≤ S7x128x1.size a
  broadcasts_S128x1_S128x64 : S128x1.Broadcasts S128x64
  inb_S128x64_S128x64_0_0 : ∀ a, (![0, 0] : Fin 2 → Nat) a + S128x64.size a ≤ S128x64.size a
  packedbf16_S128x64_S128x64_0_0 : (Rect.unit (s := S128x64) ![0, 0] S128x64.size inb_S128x64_S128x64_0_0).PackedRows (EltTy.packing .bf16)
  inb_S128x21844_S128x256_0_84 : ∀ a, (![0, 84] : Fin 2 → Nat) a + S128x256.size a ≤ S128x21844.size a
  h_S128x256 : 0 < S128x256.numel
  shapeCasts_S128x256_S128x256 : S128x256.ShapeCasts S128x256
  inb_S7x128x128_S1x128x128_3_0_0 : ∀ a, (![3, 0, 0] : Fin 3 → Nat) a + S1x128x128.size a ≤ S7x128x128.size a
  inb_S7x128x1_S1x128x1_3_0_0 : ∀ a, (![3, 0, 0] : Fin 3 → Nat) a + S1x128x1.size a ≤ S7x128x1.size a
  broadcasts_S128x1_S128x256 : S128x1.Broadcasts S128x256
  inb_S128x256_S128x256_0_0 : ∀ a, (![0, 0] : Fin 2 → Nat) a + S128x256.size a ≤ S128x256.size a
  packedbf16_S128x256_S128x256_0_0 : (Rect.unit (s := S128x256) ![0, 0] S128x256.size inb_S128x256_S128x256_0_0).PackedRows (EltTy.packing .bf16)
  inb_S128x21844_S128x1024_0_340 : ∀ a, (![0, 340] : Fin 2 → Nat) a + S128x1024.size a ≤ S128x21844.size a
  h_S128x1024 : 0 < S128x1024.numel
  shapeCasts_S128x1024_S128x1024 : S128x1024.ShapeCasts S128x1024
  inb_S7x128x128_S1x128x128_4_0_0 : ∀ a, (![4, 0, 0] : Fin 3 → Nat) a + S1x128x128.size a ≤ S7x128x128.size a
  inb_S7x128x1_S1x128x1_4_0_0 : ∀ a, (![4, 0, 0] : Fin 3 → Nat) a + S1x128x1.size a ≤ S7x128x1.size a
  broadcasts_S128x1_S128x1024 : S128x1.Broadcasts S128x1024
  inb_S128x1024_S128x1024_0_0 : ∀ a, (![0, 0] : Fin 2 → Nat) a + S128x1024.size a ≤ S128x1024.size a
  packedbf16_S128x1024_S128x1024_0_0 : (Rect.unit (s := S128x1024) ![0, 0] S128x1024.size inb_S128x1024_S128x1024_0_0).PackedRows (EltTy.packing .bf16)
  inb_S128x21844_S128x4096_0_1364 : ∀ a, (![0, 1364] : Fin 2 → Nat) a + S128x4096.size a ≤ S128x21844.size a
  h_S128x4096 : 0 < S128x4096.numel
  shapeCasts_S128x4096_S128x4096 : S128x4096.ShapeCasts S128x4096
  inb_S7x128x128_S1x128x128_5_0_0 : ∀ a, (![5, 0, 0] : Fin 3 → Nat) a + S1x128x128.size a ≤ S7x128x128.size a
  inb_S7x128x1_S1x128x1_5_0_0 : ∀ a, (![5, 0, 0] : Fin 3 → Nat) a + S1x128x1.size a ≤ S7x128x1.size a
  broadcasts_S128x1_S128x4096 : S128x1.Broadcasts S128x4096
  inb_S128x4096_S128x4096_0_0 : ∀ a, (![0, 0] : Fin 2 → Nat) a + S128x4096.size a ≤ S128x4096.size a
  packedbf16_S128x4096_S128x4096_0_0 : (Rect.unit (s := S128x4096) ![0, 0] S128x4096.size inb_S128x4096_S128x4096_0_0).PackedRows (EltTy.packing .bf16)
  inb_S128x21844_S128x16384_0_5460 : ∀ a, (![0, 5460] : Fin 2 → Nat) a + S128x16384.size a ≤ S128x21844.size a
  h_S128x16384 : 0 < S128x16384.numel
  shapeCasts_S128x16384_S128x16384 : S128x16384.ShapeCasts S128x16384
  inb_S7x128x128_S1x128x128_6_0_0 : ∀ a, (![6, 0, 0] : Fin 3 → Nat) a + S1x128x128.size a ≤ S7x128x128.size a
  inb_S7x128x1_S1x128x1_6_0_0 : ∀ a, (![6, 0, 0] : Fin 3 → Nat) a + S1x128x1.size a ≤ S7x128x1.size a
  broadcasts_S128x1_S128x16384 : S128x1.Broadcasts S128x16384
  inb_S128x16384_S128x16384_0_0 : ∀ a, (![0, 0] : Fin 2 → Nat) a + S128x16384.size a ≤ S128x16384.size a
  packedbf16_S128x16384_S128x16384_0_0 : (Rect.unit (s := S128x16384) ![0, 0] S128x16384.size inb_S128x16384_S128x16384_0_0).PackedRows (EltTy.packing .bf16)
  transposes_S128x64_S64x128_1_0 : S128x64.Transposes [1, 0] S64x128
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  shapeCasts_S128x4_S128x1x4 : S128x4.ShapeCasts S128x1x4
  reduces_S128x1x4_S128x1 : S128x1x4.Reduces [2] S128x1
  shapeCasts_S128x1_S128x1x1 : S128x1.ShapeCasts S128x1x1
  broadcasts_S128x1x1_S128x1x4 : S128x1x1.Broadcasts S128x1x4
  shapeCasts_S128x1x4_S128x4 : S128x1x4.ShapeCasts S128x4
  shapeCasts_S128x16_S128x4x4 : S128x16.ShapeCasts S128x4x4
  reduces_S128x4x4_S128x4 : S128x4x4.Reduces [2] S128x4
  shapeCasts_S128x4_S128x4x1 : S128x4.ShapeCasts S128x4x1
  broadcasts_S128x4x1_S128x4x4 : S128x4x1.Broadcasts S128x4x4
  shapeCasts_S128x4x4_S128x16 : S128x4x4.ShapeCasts S128x16
  shapeCasts_S128x64_S128x16x4 : S128x64.ShapeCasts S128x16x4
  reduces_S128x16x4_S128x16 : S128x16x4.Reduces [2] S128x16
  shapeCasts_S128x16_S128x16x1 : S128x16.ShapeCasts S128x16x1
  broadcasts_S128x16x1_S128x16x4 : S128x16x1.Broadcasts S128x16x4
  shapeCasts_S128x16x4_S128x64 : S128x16x4.ShapeCasts S128x64
  shapeCasts_S128x256_S128x64x4 : S128x256.ShapeCasts S128x64x4
  reduces_S128x64x4_S128x64 : S128x64x4.Reduces [2] S128x64
  shapeCasts_S128x64_S128x64x1 : S128x64.ShapeCasts S128x64x1
  broadcasts_S128x64x1_S128x64x4 : S128x64x1.Broadcasts S128x64x4
  shapeCasts_S128x64x4_S128x256 : S128x64x4.ShapeCasts S128x256
  inb_S128x1024_S128x256_0_0 : ∀ a, (![0, 0] : Fin 2 → Nat) a + S128x256.size a ≤ S128x1024.size a
  slices_S128x256_o0_0_S128x64 : S128x256.Slices ![0, 0] S128x64
  inb_S128x1024_S128x256_0_256 : ∀ a, (![0, 256] : Fin 2 → Nat) a + S128x256.size a ≤ S128x1024.size a
  slices_S128x256_o0_64_S128x64 : S128x256.Slices ![0, 64] S128x64
  inb_S128x1024_S128x256_0_512 : ∀ a, (![0, 512] : Fin 2 → Nat) a + S128x256.size a ≤ S128x1024.size a
  slices_S128x256_o0_128_S128x64 : S128x256.Slices ![0, 128] S128x64
  inb_S128x1024_S128x256_0_768 : ∀ a, (![0, 768] : Fin 2 → Nat) a + S128x256.size a ≤ S128x1024.size a
  slices_S128x256_o0_192_S128x64 : S128x256.Slices ![0, 192] S128x64
  concatenates_S128x256_S128x256_S128x256_S128x256_S128x1024_d1 : Shape.Concatenates [S128x256, S128x256, S128x256, S128x256] S128x1024 1
  inb_S128x4096_S128x256_0_0 : ∀ a, (![0, 0] : Fin 2 → Nat) a + S128x256.size a ≤ S128x4096.size a
  slices_S128x1024_o0_0_S128x64 : S128x1024.Slices ![0, 0] S128x64
  inb_S128x4096_S128x256_0_256 : ∀ a, (![0, 256] : Fin 2 → Nat) a + S128x256.size a ≤ S128x4096.size a
  slices_S128x1024_o0_64_S128x64 : S128x1024.Slices ![0, 64] S128x64
  inb_S128x4096_S128x256_0_512 : ∀ a, (![0, 512] : Fin 2 → Nat) a + S128x256.size a ≤ S128x4096.size a
  slices_S128x1024_o0_128_S128x64 : S128x1024.Slices ![0, 128] S128x64
  inb_S128x4096_S128x256_0_768 : ∀ a, (![0, 768] : Fin 2 → Nat) a + S128x256.size a ≤ S128x4096.size a
  slices_S128x1024_o0_192_S128x64 : S128x1024.Slices ![0, 192] S128x64
  inb_S128x4096_S128x256_0_1024 : ∀ a, (![0, 1024] : Fin 2 → Nat) a + S128x256.size a ≤ S128x4096.size a
  slices_S128x1024_o0_256_S128x64 : S128x1024.Slices ![0, 256] S128x64
  inb_S128x4096_S128x256_0_1280 : ∀ a, (![0, 1280] : Fin 2 → Nat) a + S128x256.size a ≤ S128x4096.size a
  slices_S128x1024_o0_320_S128x64 : S128x1024.Slices ![0, 320] S128x64
  inb_S128x4096_S128x256_0_1536 : ∀ a, (![0, 1536] : Fin 2 → Nat) a + S128x256.size a ≤ S128x4096.size a
  slices_S128x1024_o0_384_S128x64 : S128x1024.Slices ![0, 384] S128x64
  inb_S128x4096_S128x256_0_1792 : ∀ a, (![0, 1792] : Fin 2 → Nat) a + S128x256.size a ≤ S128x4096.size a
  slices_S128x1024_o0_448_S128x64 : S128x1024.Slices ![0, 448] S128x64
  inb_S128x4096_S128x256_0_2048 : ∀ a, (![0, 2048] : Fin 2 → Nat) a + S128x256.size a ≤ S128x4096.size a
  slices_S128x1024_o0_512_S128x64 : S128x1024.Slices ![0, 512] S128x64
  inb_S128x4096_S128x256_0_2304 : ∀ a, (![0, 2304] : Fin 2 → Nat) a + S128x256.size a ≤ S128x4096.size a
  slices_S128x1024_o0_576_S128x64 : S128x1024.Slices ![0, 576] S128x64
  inb_S128x4096_S128x256_0_2560 : ∀ a, (![0, 2560] : Fin 2 → Nat) a + S128x256.size a ≤ S128x4096.size a
  slices_S128x1024_o0_640_S128x64 : S128x1024.Slices ![0, 640] S128x64
  inb_S128x4096_S128x256_0_2816 : ∀ a, (![0, 2816] : Fin 2 → Nat) a + S128x256.size a ≤ S128x4096.size a
  slices_S128x1024_o0_704_S128x64 : S128x1024.Slices ![0, 704] S128x64
  inb_S128x4096_S128x256_0_3072 : ∀ a, (![0, 3072] : Fin 2 → Nat) a + S128x256.size a ≤ S128x4096.size a
  slices_S128x1024_o0_768_S128x64 : S128x1024.Slices ![0, 768] S128x64
  inb_S128x4096_S128x256_0_3328 : ∀ a, (![0, 3328] : Fin 2 → Nat) a + S128x256.size a ≤ S128x4096.size a
  slices_S128x1024_o0_832_S128x64 : S128x1024.Slices ![0, 832] S128x64
  inb_S128x4096_S128x256_0_3584 : ∀ a, (![0, 3584] : Fin 2 → Nat) a + S128x256.size a ≤ S128x4096.size a
  slices_S128x1024_o0_896_S128x64 : S128x1024.Slices ![0, 896] S128x64
  inb_S128x4096_S128x256_0_3840 : ∀ a, (![0, 3840] : Fin 2 → Nat) a + S128x256.size a ≤ S128x4096.size a
  slices_S128x1024_o0_960_S128x64 : S128x1024.Slices ![0, 960] S128x64
  concatenates_S128x256_S128x256_S128x256_S128x256_S128x256_S128x256_S128x256_S128x256_S128x256_S128x256_S128x256_S128x256_S128x256_S128x256_S128x256_S128x256_S128x4096_d1 : Shape.Concatenates [S128x256, S128x256, S128x256, S128x256, S128x256, S128x256, S128x256, S128x256, S128x256, S128x256, S128x256, S128x256, S128x256, S128x256, S128x256, S128x256] S128x4096 1
  inb_S128x16384_S128x256_0_0 : ∀ a, (![0, 0] : Fin 2 → Nat) a + S128x256.size a ≤ S128x16384.size a
  slices_S128x4096_o0_0_S128x64 : S128x4096.Slices ![0, 0] S128x64
  inb_S128x16384_S128x256_0_256 : ∀ a, (![0, 256] : Fin 2 → Nat) a + S128x256.size a ≤ S128x16384.size a
  slices_S128x4096_o0_64_S128x64 : S128x4096.Slices ![0, 64] S128x64
  inb_S128x16384_S128x256_0_512 : ∀ a, (![0, 512] : Fin 2 → Nat) a + S128x256.size a ≤ S128x16384.size a
  slices_S128x4096_o0_128_S128x64 : S128x4096.Slices ![0, 128] S128x64
  inb_S128x16384_S128x256_0_768 : ∀ a, (![0, 768] : Fin 2 → Nat) a + S128x256.size a ≤ S128x16384.size a
  slices_S128x4096_o0_192_S128x64 : S128x4096.Slices ![0, 192] S128x64
  inb_S128x16384_S128x256_0_1024 : ∀ a, (![0, 1024] : Fin 2 → Nat) a + S128x256.size a ≤ S128x16384.size a
  slices_S128x4096_o0_256_S128x64 : S128x4096.Slices ![0, 256] S128x64
  inb_S128x16384_S128x256_0_1280 : ∀ a, (![0, 1280] : Fin 2 → Nat) a + S128x256.size a ≤ S128x16384.size a
  slices_S128x4096_o0_320_S128x64 : S128x4096.Slices ![0, 320] S128x64
  inb_S128x16384_S128x256_0_1536 : ∀ a, (![0, 1536] : Fin 2 → Nat) a + S128x256.size a ≤ S128x16384.size a
  slices_S128x4096_o0_384_S128x64 : S128x4096.Slices ![0, 384] S128x64
  inb_S128x16384_S128x256_0_1792 : ∀ a, (![0, 1792] : Fin 2 → Nat) a + S128x256.size a ≤ S128x16384.size a
  slices_S128x4096_o0_448_S128x64 : S128x4096.Slices ![0, 448] S128x64
  inb_S128x16384_S128x256_0_2048 : ∀ a, (![0, 2048] : Fin 2 → Nat) a + S128x256.size a ≤ S128x16384.size a
  slices_S128x4096_o0_512_S128x64 : S128x4096.Slices ![0, 512] S128x64
  inb_S128x16384_S128x256_0_2304 : ∀ a, (![0, 2304] : Fin 2 → Nat) a + S128x256.size a ≤ S128x16384.size a
  slices_S128x4096_o0_576_S128x64 : S128x4096.Slices ![0, 576] S128x64
  inb_S128x16384_S128x256_0_2560 : ∀ a, (![0, 2560] : Fin 2 → Nat) a + S128x256.size a ≤ S128x16384.size a
  slices_S128x4096_o0_640_S128x64 : S128x4096.Slices ![0, 640] S128x64
  inb_S128x16384_S128x256_0_2816 : ∀ a, (![0, 2816] : Fin 2 → Nat) a + S128x256.size a ≤ S128x16384.size a
  slices_S128x4096_o0_704_S128x64 : S128x4096.Slices ![0, 704] S128x64
  inb_S128x16384_S128x256_0_3072 : ∀ a, (![0, 3072] : Fin 2 → Nat) a + S128x256.size a ≤ S128x16384.size a
  slices_S128x4096_o0_768_S128x64 : S128x4096.Slices ![0, 768] S128x64
  inb_S128x16384_S128x256_0_3328 : ∀ a, (![0, 3328] : Fin 2 → Nat) a + S128x256.size a ≤ S128x16384.size a
  slices_S128x4096_o0_832_S128x64 : S128x4096.Slices ![0, 832] S128x64
  inb_S128x16384_S128x256_0_3584 : ∀ a, (![0, 3584] : Fin 2 → Nat) a + S128x256.size a ≤ S128x16384.size a
  slices_S128x4096_o0_896_S128x64 : S128x4096.Slices ![0, 896] S128x64
  inb_S128x16384_S128x256_0_3840 : ∀ a, (![0, 3840] : Fin 2 → Nat) a + S128x256.size a ≤ S128x16384.size a
  slices_S128x4096_o0_960_S128x64 : S128x4096.Slices ![0, 960] S128x64
  inb_S128x16384_S128x256_0_4096 : ∀ a, (![0, 4096] : Fin 2 → Nat) a + S128x256.size a ≤ S128x16384.size a
  slices_S128x4096_o0_1024_S128x64 : S128x4096.Slices ![0, 1024] S128x64
  inb_S128x16384_S128x256_0_4352 : ∀ a, (![0, 4352] : Fin 2 → Nat) a + S128x256.size a ≤ S128x16384.size a
  slices_S128x4096_o0_1088_S128x64 : S128x4096.Slices ![0, 1088] S128x64
  inb_S128x16384_S128x256_0_4608 : ∀ a, (![0, 4608] : Fin 2 → Nat) a + S128x256.size a ≤ S128x16384.size a
  slices_S128x4096_o0_1152_S128x64 : S128x4096.Slices ![0, 1152] S128x64
  inb_S128x16384_S128x256_0_4864 : ∀ a, (![0, 4864] : Fin 2 → Nat) a + S128x256.size a ≤ S128x16384.size a
  slices_S128x4096_o0_1216_S128x64 : S128x4096.Slices ![0, 1216] S128x64
  inb_S128x16384_S128x256_0_5120 : ∀ a, (![0, 5120] : Fin 2 → Nat) a + S128x256.size a ≤ S128x16384.size a
  slices_S128x4096_o0_1280_S128x64 : S128x4096.Slices ![0, 1280] S128x64
  inb_S128x16384_S128x256_0_5376 : ∀ a, (![0, 5376] : Fin 2 → Nat) a + S128x256.size a ≤ S128x16384.size a
  slices_S128x4096_o0_1344_S128x64 : S128x4096.Slices ![0, 1344] S128x64
  inb_S128x16384_S128x256_0_5632 : ∀ a, (![0, 5632] : Fin 2 → Nat) a + S128x256.size a ≤ S128x16384.size a
  slices_S128x4096_o0_1408_S128x64 : S128x4096.Slices ![0, 1408] S128x64
  inb_S128x16384_S128x256_0_5888 : ∀ a, (![0, 5888] : Fin 2 → Nat) a + S128x256.size a ≤ S128x16384.size a
  slices_S128x4096_o0_1472_S128x64 : S128x4096.Slices ![0, 1472] S128x64
  inb_S128x16384_S128x256_0_6144 : ∀ a, (![0, 6144] : Fin 2 → Nat) a + S128x256.size a ≤ S128x16384.size a
  slices_S128x4096_o0_1536_S128x64 : S128x4096.Slices ![0, 1536] S128x64
  inb_S128x16384_S128x256_0_6400 : ∀ a, (![0, 6400] : Fin 2 → Nat) a + S128x256.size a ≤ S128x16384.size a
  slices_S128x4096_o0_1600_S128x64 : S128x4096.Slices ![0, 1600] S128x64
  inb_S128x16384_S128x256_0_6656 : ∀ a, (![0, 6656] : Fin 2 → Nat) a + S128x256.size a ≤ S128x16384.size a
  slices_S128x4096_o0_1664_S128x64 : S128x4096.Slices ![0, 1664] S128x64
  inb_S128x16384_S128x256_0_6912 : ∀ a, (![0, 6912] : Fin 2 → Nat) a + S128x256.size a ≤ S128x16384.size a
  slices_S128x4096_o0_1728_S128x64 : S128x4096.Slices ![0, 1728] S128x64
  inb_S128x16384_S128x256_0_7168 : ∀ a, (![0, 7168] : Fin 2 → Nat) a + S128x256.size a ≤ S128x16384.size a
  slices_S128x4096_o0_1792_S128x64 : S128x4096.Slices ![0, 1792] S128x64
  inb_S128x16384_S128x256_0_7424 : ∀ a, (![0, 7424] : Fin 2 → Nat) a + S128x256.size a ≤ S128x16384.size a
  slices_S128x4096_o0_1856_S128x64 : S128x4096.Slices ![0, 1856] S128x64
  inb_S128x16384_S128x256_0_7680 : ∀ a, (![0, 7680] : Fin 2 → Nat) a + S128x256.size a ≤ S128x16384.size a
  slices_S128x4096_o0_1920_S128x64 : S128x4096.Slices ![0, 1920] S128x64
  inb_S128x16384_S128x256_0_7936 : ∀ a, (![0, 7936] : Fin 2 → Nat) a + S128x256.size a ≤ S128x16384.size a
  slices_S128x4096_o0_1984_S128x64 : S128x4096.Slices ![0, 1984] S128x64
  inb_S128x16384_S128x256_0_8192 : ∀ a, (![0, 8192] : Fin 2 → Nat) a + S128x256.size a ≤ S128x16384.size a
  slices_S128x4096_o0_2048_S128x64 : S128x4096.Slices ![0, 2048] S128x64
  inb_S128x16384_S128x256_0_8448 : ∀ a, (![0, 8448] : Fin 2 → Nat) a + S128x256.size a ≤ S128x16384.size a
  slices_S128x4096_o0_2112_S128x64 : S128x4096.Slices ![0, 2112] S128x64
  inb_S128x16384_S128x256_0_8704 : ∀ a, (![0, 8704] : Fin 2 → Nat) a + S128x256.size a ≤ S128x16384.size a
  slices_S128x4096_o0_2176_S128x64 : S128x4096.Slices ![0, 2176] S128x64
  inb_S128x16384_S128x256_0_8960 : ∀ a, (![0, 8960] : Fin 2 → Nat) a + S128x256.size a ≤ S128x16384.size a
  slices_S128x4096_o0_2240_S128x64 : S128x4096.Slices ![0, 2240] S128x64
  inb_S128x16384_S128x256_0_9216 : ∀ a, (![0, 9216] : Fin 2 → Nat) a + S128x256.size a ≤ S128x16384.size a
  slices_S128x4096_o0_2304_S128x64 : S128x4096.Slices ![0, 2304] S128x64
  inb_S128x16384_S128x256_0_9472 : ∀ a, (![0, 9472] : Fin 2 → Nat) a + S128x256.size a ≤ S128x16384.size a
  slices_S128x4096_o0_2368_S128x64 : S128x4096.Slices ![0, 2368] S128x64
  inb_S128x16384_S128x256_0_9728 : ∀ a, (![0, 9728] : Fin 2 → Nat) a + S128x256.size a ≤ S128x16384.size a
  slices_S128x4096_o0_2432_S128x64 : S128x4096.Slices ![0, 2432] S128x64
  inb_S128x16384_S128x256_0_9984 : ∀ a, (![0, 9984] : Fin 2 → Nat) a + S128x256.size a ≤ S128x16384.size a
  slices_S128x4096_o0_2496_S128x64 : S128x4096.Slices ![0, 2496] S128x64
  inb_S128x16384_S128x256_0_10240 : ∀ a, (![0, 10240] : Fin 2 → Nat) a + S128x256.size a ≤ S128x16384.size a
  slices_S128x4096_o0_2560_S128x64 : S128x4096.Slices ![0, 2560] S128x64
  inb_S128x16384_S128x256_0_10496 : ∀ a, (![0, 10496] : Fin 2 → Nat) a + S128x256.size a ≤ S128x16384.size a
  slices_S128x4096_o0_2624_S128x64 : S128x4096.Slices ![0, 2624] S128x64
  inb_S128x16384_S128x256_0_10752 : ∀ a, (![0, 10752] : Fin 2 → Nat) a + S128x256.size a ≤ S128x16384.size a
  slices_S128x4096_o0_2688_S128x64 : S128x4096.Slices ![0, 2688] S128x64
  inb_S128x16384_S128x256_0_11008 : ∀ a, (![0, 11008] : Fin 2 → Nat) a + S128x256.size a ≤ S128x16384.size a
  slices_S128x4096_o0_2752_S128x64 : S128x4096.Slices ![0, 2752] S128x64
  inb_S128x16384_S128x256_0_11264 : ∀ a, (![0, 11264] : Fin 2 → Nat) a + S128x256.size a ≤ S128x16384.size a
  slices_S128x4096_o0_2816_S128x64 : S128x4096.Slices ![0, 2816] S128x64
  inb_S128x16384_S128x256_0_11520 : ∀ a, (![0, 11520] : Fin 2 → Nat) a + S128x256.size a ≤ S128x16384.size a
  slices_S128x4096_o0_2880_S128x64 : S128x4096.Slices ![0, 2880] S128x64
  inb_S128x16384_S128x256_0_11776 : ∀ a, (![0, 11776] : Fin 2 → Nat) a + S128x256.size a ≤ S128x16384.size a
  slices_S128x4096_o0_2944_S128x64 : S128x4096.Slices ![0, 2944] S128x64
  inb_S128x16384_S128x256_0_12032 : ∀ a, (![0, 12032] : Fin 2 → Nat) a + S128x256.size a ≤ S128x16384.size a
  slices_S128x4096_o0_3008_S128x64 : S128x4096.Slices ![0, 3008] S128x64
  inb_S128x16384_S128x256_0_12288 : ∀ a, (![0, 12288] : Fin 2 → Nat) a + S128x256.size a ≤ S128x16384.size a
  slices_S128x4096_o0_3072_S128x64 : S128x4096.Slices ![0, 3072] S128x64
  inb_S128x16384_S128x256_0_12544 : ∀ a, (![0, 12544] : Fin 2 → Nat) a + S128x256.size a ≤ S128x16384.size a
  slices_S128x4096_o0_3136_S128x64 : S128x4096.Slices ![0, 3136] S128x64
  inb_S128x16384_S128x256_0_12800 : ∀ a, (![0, 12800] : Fin 2 → Nat) a + S128x256.size a ≤ S128x16384.size a
  slices_S128x4096_o0_3200_S128x64 : S128x4096.Slices ![0, 3200] S128x64
  inb_S128x16384_S128x256_0_13056 : ∀ a, (![0, 13056] : Fin 2 → Nat) a + S128x256.size a ≤ S128x16384.size a
  slices_S128x4096_o0_3264_S128x64 : S128x4096.Slices ![0, 3264] S128x64
  inb_S128x16384_S128x256_0_13312 : ∀ a, (![0, 13312] : Fin 2 → Nat) a + S128x256.size a ≤ S128x16384.size a
  slices_S128x4096_o0_3328_S128x64 : S128x4096.Slices ![0, 3328] S128x64
  inb_S128x16384_S128x256_0_13568 : ∀ a, (![0, 13568] : Fin 2 → Nat) a + S128x256.size a ≤ S128x16384.size a
  slices_S128x4096_o0_3392_S128x64 : S128x4096.Slices ![0, 3392] S128x64
  inb_S128x16384_S128x256_0_13824 : ∀ a, (![0, 13824] : Fin 2 → Nat) a + S128x256.size a ≤ S128x16384.size a
  slices_S128x4096_o0_3456_S128x64 : S128x4096.Slices ![0, 3456] S128x64
  inb_S128x16384_S128x256_0_14080 : ∀ a, (![0, 14080] : Fin 2 → Nat) a + S128x256.size a ≤ S128x16384.size a
  slices_S128x4096_o0_3520_S128x64 : S128x4096.Slices ![0, 3520] S128x64
  inb_S128x16384_S128x256_0_14336 : ∀ a, (![0, 14336] : Fin 2 → Nat) a + S128x256.size a ≤ S128x16384.size a
  slices_S128x4096_o0_3584_S128x64 : S128x4096.Slices ![0, 3584] S128x64
  inb_S128x16384_S128x256_0_14592 : ∀ a, (![0, 14592] : Fin 2 → Nat) a + S128x256.size a ≤ S128x16384.size a
  slices_S128x4096_o0_3648_S128x64 : S128x4096.Slices ![0, 3648] S128x64
  inb_S128x16384_S128x256_0_14848 : ∀ a, (![0, 14848] : Fin 2 → Nat) a + S128x256.size a ≤ S128x16384.size a
  slices_S128x4096_o0_3712_S128x64 : S128x4096.Slices ![0, 3712] S128x64
  inb_S128x16384_S128x256_0_15104 : ∀ a, (![0, 15104] : Fin 2 → Nat) a + S128x256.size a ≤ S128x16384.size a
  slices_S128x4096_o0_3776_S128x64 : S128x4096.Slices ![0, 3776] S128x64
  inb_S128x16384_S128x256_0_15360 : ∀ a, (![0, 15360] : Fin 2 → Nat) a + S128x256.size a ≤ S128x16384.size a
  slices_S128x4096_o0_3840_S128x64 : S128x4096.Slices ![0, 3840] S128x64
  inb_S128x16384_S128x256_0_15616 : ∀ a, (![0, 15616] : Fin 2 → Nat) a + S128x256.size a ≤ S128x16384.size a
  slices_S128x4096_o0_3904_S128x64 : S128x4096.Slices ![0, 3904] S128x64
  inb_S128x16384_S128x256_0_15872 : ∀ a, (![0, 15872] : Fin 2 → Nat) a + S128x256.size a ≤ S128x16384.size a
  slices_S128x4096_o0_3968_S128x64 : S128x4096.Slices ![0, 3968] S128x64
  inb_S128x16384_S128x256_0_16128 : ∀ a, (![0, 16128] : Fin 2 → Nat) a + S128x256.size a ≤ S128x16384.size a
  slices_S128x4096_o0_4032_S128x64 : S128x4096.Slices ![0, 4032] S128x64
  concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x16384_d1 : Shape.Concatenates (S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: S128x256 :: []) S128x16384 1
  dot_S128x128_S128x4_S128x4_1_0_0_1_n_n_wf : DotDims.WF S128x128 S128x4 S128x4 [1] [0] [0] [1] [] []
  dot_S128x128_S128x16_S128x16_1_0_0_1_n_n_wf : DotDims.WF S128x128 S128x16 S128x16 [1] [0] [0] [1] [] []
  dot_S128x128_S128x64_S128x64_1_0_0_1_n_n_wf : DotDims.WF S128x128 S128x64 S128x64 [1] [0] [0] [1] [] []
  dot_S128x128_S128x256_S128x256_1_0_0_1_n_n_wf : DotDims.WF S128x128 S128x256 S128x256 [1] [0] [0] [1] [] []
  dot_S128x128_S128x1024_S128x1024_1_0_0_1_n_n_wf : DotDims.WF S128x128 S128x1024 S128x1024 [1] [0] [0] [1] [] []
  dot_S128x128_S128x4096_S128x4096_1_0_0_1_n_n_wf : DotDims.WF S128x128 S128x4096 S128x4096 [1] [0] [0] [1] [] []
  dot_S128x128_S128x16384_S128x16384_1_0_0_1_n_n_wf : DotDims.WF S128x128 S128x16384 S128x16384 [1] [0] [0] [1] [] []
  dot_S128x64_S64x128_S128x128_1_0_0_1_n_n_wf : DotDims.WF S128x64 S64x128 S128x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x21844.size a ≤ S128x21844.size a
  hwx0_0 : ∀ i : grid0.Coords, EltTy.bits .f32 = 32 ∨ (Rect.block (s := S128x21844) S128x21844.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x128x128.size a ≤ S7x128x128.size a
  hwx0_1 : ∀ i : grid0.Coords, EltTy.bits .f32 = 32 ∨ (Rect.block (s := S7x128x128) S7x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x128x1.size a ≤ S7x128x1.size a
  hwx0_2 : ∀ i : grid0.Coords, EltTy.bits .f32 = 32 ∨ (Rect.block (s := S7x128x1) S7x128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x4.size a ≤ S128x4.size a
  hwx0_3 : ∀ i : grid0.Coords, EltTy.bits .bf16 = 32 ∨ (Rect.block (s := S128x4) S128x4.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x16.size a ≤ S128x16.size a
  hwx0_4 : ∀ i : grid0.Coords, EltTy.bits .bf16 = 32 ∨ (Rect.block (s := S128x16) S128x16.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .bf16 = 32 ∨ (Rect.block (s := S128x256) S128x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S128x1024.size a
  hwx0_7 : ∀ i : grid0.Coords, EltTy.bits .bf16 = 32 ∨ (Rect.block (s := S128x1024) S128x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x4096.size a ≤ S128x4096.size a
  hwx0_8 : ∀ i : grid0.Coords, EltTy.bits .bf16 = 32 ∨ (Rect.block (s := S128x4096) S128x4096.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x16384.size a ≤ S128x16384.size a
  hwx0_9 : ∀ i : grid0.Coords, EltTy.bits .bf16 = 32 ∨ (Rect.block (s := S128x16384) S128x16384.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S4096x64.size a
  hwx1_0 : ∀ i : grid1.Coords, EltTy.bits .f32 = 32 ∨ (Rect.block (s := S4096x64) S128x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x4.size a ≤ S128x4.size a
  hwx1_3 : ∀ i : grid1.Coords, EltTy.bits .bf16 = 32 ∨ (Rect.block (s := S128x4) S128x4.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x16.size a ≤ S128x16.size a
  hwx1_4 : ∀ i : grid1.Coords, EltTy.bits .bf16 = 32 ∨ (Rect.block (s := S128x16) S128x16.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .bf16 = 32 ∨ (Rect.block (s := S128x64) S128x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .bf16 = 32 ∨ (Rect.block (s := S128x256) S128x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x1024.size a ≤ S128x1024.size a
  hwx1_7 : ∀ i : grid1.Coords, EltTy.bits .bf16 = 32 ∨ (Rect.block (s := S128x1024) S128x1024.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x4096.size a ≤ S128x4096.size a
  hwx1_8 : ∀ i : grid1.Coords, EltTy.bits .bf16 = 32 ∨ (Rect.block (s := S128x4096) S128x4096.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x16384.size a ≤ S128x16384.size a
  hwx1_9 : ∀ i : grid1.Coords, EltTy.bits .bf16 = 32 ∨ (Rect.block (s := S128x16384) S128x16384.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S128x4.size a ≤ S4096x4.size a
  hwx1_10 : ∀ i : grid1.Coords, EltTy.bits .f32 = 32 ∨ (Rect.block (s := S4096x4) S128x4.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S128x16.size a ≤ S4096x16.size a
  hwx1_11 : ∀ i : grid1.Coords, EltTy.bits .f32 = 32 ∨ (Rect.block (s := S4096x16) S128x16.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S128x64.size a ≤ S4096x64.size a
  hwx1_12 : ∀ i : grid1.Coords, EltTy.bits .f32 = 32 ∨ (Rect.block (s := S4096x64) S128x64.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S128x256.size a ≤ S4096x256.size a
  hwx1_13 : ∀ i : grid1.Coords, EltTy.bits .f32 = 32 ∨ (Rect.block (s := S4096x256) S128x256.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S128x1024.size a ≤ S4096x1024.size a
  hwx1_14 : ∀ i : grid1.Coords, EltTy.bits .f32 = 32 ∨ (Rect.block (s := S4096x1024) S128x1024.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S128x4096.size a ≤ S4096x4096.size a
  hwx1_15 : ∀ i : grid1.Coords, EltTy.bits .f32 = 32 ∨ (Rect.block (s := S4096x4096) S128x4096.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S128x16384.size a ≤ S4096x16384.size a
  hwx1_16 : ∀ i : grid1.Coords, EltTy.bits .f32 = 32 ∨ (Rect.block (s := S4096x16384) S128x16384.size (cc1_transform_16 i) (hinb1_16 i)).WholeWords (EltTy.packing .f32)

variable [Facts₀]

def dot_S128x128_S128x4_S128x4_1_0_0_1_n_n : DotDims S128x128 S128x4 S128x4 where
  lhsContracting := [1]
  rhsContracting := [0]
  lhsNonContracting := [0]
  rhsNonContracting := [1]
  lhsBatch := []
  rhsBatch := []
  wf := dot_S128x128_S128x4_S128x4_1_0_0_1_n_n_wf
def dot_S128x128_S128x16_S128x16_1_0_0_1_n_n : DotDims S128x128 S128x16 S128x16 where
  lhsContracting := [1]
  rhsContracting := [0]
  lhsNonContracting := [0]
  rhsNonContracting := [1]
  lhsBatch := []
  rhsBatch := []
  wf := dot_S128x128_S128x16_S128x16_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf
def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf
def dot_S128x128_S128x16384_S128x16384_1_0_0_1_n_n : DotDims S128x128 S128x16384 S128x16384 where
  lhsContracting := [1]
  rhsContracting := [0]
  lhsNonContracting := [0]
  rhsNonContracting := [1]
  lhsBatch := []
  rhsBatch := []
  wf := dot_S128x128_S128x16384_S128x16384_1_0_0_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf

abbrev win0_0 : Pipeline.Window sig grid0 :=
  Pipeline.Window.ofSpec (Memref.whole main_v0) S128x21844.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S7x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S7x128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S128x4.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S128x16.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S128x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_3) S128x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_4) S128x1024.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2_5) S128x4096.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_6) S128x16384.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S128x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S128x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2_2) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2_3) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2_4) S128x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v2_5) S128x4096.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v2_6) S128x16384.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v5_0) S128x4.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v5_1) S128x16.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v5_2) S128x64.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v5_3) S128x256.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v5_4) S128x1024.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v5_5) S128x4096.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v5_6) S128x16384.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S4096x64 : Shape := ⟨2, ![4096, 64]⟩
abbrev S128x64 : Shape := ⟨2, ![128, 64]⟩
abbrev S128 : Shape := ⟨1, ![128]⟩
abbrev S21844x128 : Shape := ⟨2, ![21844, 128]⟩
abbrev S7x128x128 : Shape := ⟨3, ![7, 128, 128]⟩
abbrev S7x128 : Shape := ⟨2, ![7, 128]⟩
abbrev S64x128 : Shape := ⟨2, ![64, 128]⟩
abbrev S4096x128 : Shape := ⟨2, ![4096, 128]⟩
abbrev S1x128 : Shape := ⟨2, ![1, 128]⟩
abbrev S4x128 : Shape := ⟨2, ![4, 128]⟩
abbrev S1x128x128 : Shape := ⟨3, ![1, 128, 128]⟩
abbrev S128x128 : Shape := ⟨2, ![128, 128]⟩
abbrev S_ : Shape := ⟨0, ![]⟩
abbrev S16x128 : Shape := ⟨2, ![16, 128]⟩
abbrev S256x128 : Shape := ⟨2, ![256, 128]⟩
abbrev S1024x128 : Shape := ⟨2, ![1024, 128]⟩
abbrev S16384x128 : Shape := ⟨2, ![16384, 128]⟩
abbrev S4096x21844 : Shape := ⟨2, ![4096, 21844]⟩
abbrev S4096x5461x4 : Shape := ⟨3, ![4096, 5461, 4]⟩
abbrev S4096x5461 : Shape := ⟨2, ![4096, 5461]⟩
abbrev S4096x5461x1 : Shape := ⟨3, ![4096, 5461, 1]⟩
abbrev S4096x1x4 : Shape := ⟨3, ![4096, 1, 4]⟩
abbrev S4096x4 : Shape := ⟨2, ![4096, 4]⟩
abbrev S4096x4x4 : Shape := ⟨3, ![4096, 4, 4]⟩
abbrev S4096x16 : Shape := ⟨2, ![4096, 16]⟩
abbrev S4096x16x4 : Shape := ⟨3, ![4096, 16, 4]⟩
abbrev S4096x64x4 : Shape := ⟨3, ![4096, 64, 4]⟩
abbrev S4096x256 : Shape := ⟨2, ![4096, 256]⟩
abbrev S4096x256x4 : Shape := ⟨3, ![4096, 256, 4]⟩
abbrev S4096x1024 : Shape := ⟨2, ![4096, 1024]⟩
abbrev S4096x1024x4 : Shape := ⟨3, ![4096, 1024, 4]⟩
abbrev S4096x4096 : Shape := ⟨2, ![4096, 4096]⟩
abbrev S4096x4096x4 : Shape := ⟨3, ![4096, 4096, 4]⟩
abbrev S4096x16384 : Shape := ⟨2, ![4096, 16384]⟩

abbrev nBuf : Space → Nat
  | .hbm => 152
  | .vmem => 0
  | .smem => 0
  | _ => 0

abbrev hbmTy0_0 (i : Nat) : BufTy := match i % 128 with
  | 0 => ⟨S4096x64, .f32⟩
  | 1 => ⟨S128x64, .f32⟩
  | 2 => ⟨S128, .f32⟩
  | 3 => ⟨S21844x128, .f32⟩
  | 4 => ⟨S7x128x128, .f32⟩
  | 5 => ⟨S7x128, .f32⟩
  | 6 => ⟨S64x128, .f32⟩
  | 7 => ⟨S4096x128, .f32⟩
  | 8 => ⟨S1x128, .f32⟩
  | 9 => ⟨S4096x128, .f32⟩
  | 10 => ⟨S4096x128, .f32⟩
  | 11 => ⟨S4x128, .f32⟩
  | 12 => ⟨S1x128x128, .f32⟩
  | 13 => ⟨S128x128, .f32⟩
  | 14 => ⟨S128x128, .f32⟩
  | 15 => ⟨S4x128, .f32⟩
  | 16 => ⟨S1x128, .f32⟩
  | 17 => ⟨S128, .f32⟩
  | 18 => ⟨S1x128, .f32⟩
  | 19 => ⟨S4x128, .f32⟩
  | 20 => ⟨S4x128, .f32⟩
  | 21 => ⟨S_, .f32⟩
  | 22 => ⟨S4x128, .f32⟩
  | 23 => ⟨S4x128, .f32⟩
  | 24 => ⟨S16x128, .f32⟩
  | 25 => ⟨S1x128x128, .f32⟩
  | 26 => ⟨S128x128, .f32⟩
  | 27 => ⟨S128x128, .f32⟩
  | 28 => ⟨S16x128, .f32⟩
  | 29 => ⟨S1x128, .f32⟩
  | 30 => ⟨S128, .f32⟩
  | 31 => ⟨S1x128, .f32⟩
  | 32 => ⟨S16x128, .f32⟩
  | 33 => ⟨S16x128, .f32⟩
  | 34 => ⟨S_, .f32⟩
  | 35 => ⟨S16x128, .f32⟩
  | 36 => ⟨S16x128, .f32⟩
  | 37 => ⟨S64x128, .f32⟩
  | 38 => ⟨S1x128x128, .f32⟩
  | 39 => ⟨S128x128, .f32⟩
  | 40 => ⟨S128x128, .f32⟩
  | 41 => ⟨S64x128, .f32⟩
  | 42 => ⟨S1x128, .f32⟩
  | 43 => ⟨S128, .f32⟩
  | 44 => ⟨S1x128, .f32⟩
  | 45 => ⟨S64x128, .f32⟩
  | 46 => ⟨S64x128, .f32⟩
  | 47 => ⟨S_, .f32⟩
  | 48 => ⟨S64x128, .f32⟩
  | 49 => ⟨S64x128, .f32⟩
  | 50 => ⟨S256x128, .f32⟩
  | 51 => ⟨S1x128x128, .f32⟩
  | 52 => ⟨S128x128, .f32⟩
  | 53 => ⟨S128x128, .f32⟩
  | 54 => ⟨S256x128, .f32⟩
  | 55 => ⟨S1x128, .f32⟩
  | 56 => ⟨S128, .f32⟩
  | 57 => ⟨S1x128, .f32⟩
  | 58 => ⟨S256x128, .f32⟩
  | 59 => ⟨S256x128, .f32⟩
  | 60 => ⟨S_, .f32⟩
  | 61 => ⟨S256x128, .f32⟩
  | 62 => ⟨S256x128, .f32⟩
  | 63 => ⟨S1024x128, .f32⟩
  | 64 => ⟨S1x128x128, .f32⟩
  | 65 => ⟨S128x128, .f32⟩
  | 66 => ⟨S128x128, .f32⟩
  | 67 => ⟨S1024x128, .f32⟩
  | 68 => ⟨S1x128, .f32⟩
  | 69 => ⟨S128, .f32⟩
  | 70 => ⟨S1x128, .f32⟩
  | 71 => ⟨S1024x128, .f32⟩
  | 72 => ⟨S1024x128, .f32⟩
  | 73 => ⟨S_, .f32⟩
  | 74 => ⟨S1024x128, .f32⟩
  | 75 => ⟨S1024x128, .f32⟩
  | 76 => ⟨S4096x128, .f32⟩
  | 77 => ⟨S1x128x128, .f32⟩
  | 78 => ⟨S128x128, .f32⟩
  | 79 => ⟨S128x128, .f32⟩
  | 80 => ⟨S4096x128, .f32⟩
  | 81 => ⟨S1x128, .f32⟩
  | 82 => ⟨S128, .f32⟩
  | 83 => ⟨S1x128, .f32⟩
  | 84 => ⟨S4096x128, .f32⟩
  | 85 => ⟨S4096x128, .f32⟩
  | 86 => ⟨S_, .f32⟩
  | 87 => ⟨S4096x128, .f32⟩
  | 88 => ⟨S4096x128, .f32⟩
  | 89 => ⟨S16384x128, .f32⟩
  | 90 => ⟨S1x128x128, .f32⟩
  | 91 => ⟨S128x128, .f32⟩
  | 92 => ⟨S128x128, .f32⟩
  | 93 => ⟨S16384x128, .f32⟩
  | 94 => ⟨S1x128, .f32⟩
  | 95 => ⟨S128, .f32⟩
  | 96 => ⟨S1x128, .f32⟩
  | 97 => ⟨S16384x128, .f32⟩
  | 98 => ⟨S16384x128, .f32⟩
  | 99 => ⟨S_, .f32⟩
  | 100 => ⟨S16384x128, .f32⟩
  | 101 => ⟨S16384x128, .f32⟩
  | 102 => ⟨S21844x128, .f32⟩
  | 103 => ⟨S4096x21844, .f32⟩
  | 104 => ⟨S4096x5461x4, .f32⟩
  | 105 => ⟨S_, .f32⟩
  | 106 => ⟨S4096x5461, .f32⟩
  | 107 => ⟨S_, .f32⟩
  | 108 => ⟨S4096x5461, .f32⟩
  | 109 => ⟨S4096x5461, .f32⟩
  | 110 => ⟨S4096x5461x1, .f32⟩
  | 111 => ⟨S4096x5461x4, .f32⟩
  | 112 => ⟨S4096x5461x4, .f32⟩
  | 113 => ⟨S4096x5461x4, .f32⟩
  | 114 => ⟨S_, .f32⟩
  | 115 => ⟨S4096x5461, .f32⟩
  | 116 => ⟨S4096x5461x1, .f32⟩
  | 117 => ⟨S4096x5461x1, .f32⟩
  | 118 => ⟨S4096x5461x4, .f32⟩
  | 119 => ⟨S4096x5461x4, .f32⟩
  | 120 => ⟨S4096x1x4, .f32⟩
  | 121 => ⟨S4096x4, .f32⟩
  | 122 => ⟨S4096x4x4, .f32⟩
  | 123 => ⟨S4096x16, .f32⟩
  | 124 => ⟨S4096x4x4, .f32⟩
  | 125 => ⟨S4096x16, .f32⟩
  | 126 => ⟨S4096x16, .f32⟩
  | 127 => ⟨S4096x16x4, .f32⟩
  | _ => ⟨S4096x64, .f32⟩

abbrev hbmTy0_1 (i : Nat) : BufTy := match i % 128 with
  | 0 => ⟨S4096x64, .f32⟩
  | 1 => ⟨S4096x16x4, .f32⟩
  | 2 => ⟨S4096x64, .f32⟩
  | 3 => ⟨S4096x64, .f32⟩
  | 4 => ⟨S4096x64x4, .f32⟩
  | 5 => ⟨S4096x256, .f32⟩
  | 6 => ⟨S4096x64x4, .f32⟩
  | 7 => ⟨S4096x256, .f32⟩
  | 8 => ⟨S4096x256, .f32⟩
  | 9 => ⟨S4096x256x4, .f32⟩
  | 10 => ⟨S4096x1024, .f32⟩
  | 11 => ⟨S4096x256x4, .f32⟩
  | 12 => ⟨S4096x1024, .f32⟩
  | 13 => ⟨S4096x1024, .f32⟩
  | 14 => ⟨S4096x1024x4, .f32⟩
  | 15 => ⟨S4096x4096, .f32⟩
  | 16 => ⟨S4096x1024x4, .f32⟩
  | 17 => ⟨S4096x4096, .f32⟩
  | 18 => ⟨S4096x4096, .f32⟩
  | 19 => ⟨S4096x4096x4, .f32⟩
  | 20 => ⟨S4096x16384, .f32⟩
  | 21 => ⟨S4096x4096x4, .f32⟩
  | 22 => ⟨S4096x16384, .f32⟩
  | 23 => ⟨S4096x16384, .f32⟩
  | _ => ⟨S4096x64, .f32⟩

abbrev hbmTy (i : Nat) : BufTy := match i / 128 with
  | 0 => hbmTy0_0 i
  | 1 => hbmTy0_1 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call1_cst : Ref sig .tc := ⟨.hbm, 34, rfl⟩
abbrev main_call1_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call2_cst : Ref sig .tc := ⟨.hbm, 47, rfl⟩
abbrev main_call2_v0 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call3_cst : Ref sig .tc := ⟨.hbm, 60, rfl⟩
abbrev main_call3_v0 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_call4_cst : Ref sig .tc := ⟨.hbm, 73, rfl⟩
abbrev main_call4_v0 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_call5_cst : Ref sig .tc := ⟨.hbm, 86, rfl⟩
abbrev main_call5_v0 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_call6_cst : Ref sig .tc := ⟨.hbm, 99, rfl⟩
abbrev main_call6_v0 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_call7_cst : Ref sig .tc := ⟨.hbm, 105, rfl⟩
abbrev main_call7_v0 : Ref sig .tc := ⟨.hbm, 106, rfl⟩
abbrev main_call7_cst_0 : Ref sig .tc := ⟨.hbm, 107, rfl⟩
abbrev main_call7_v1 : Ref sig .tc := ⟨.hbm, 108, rfl⟩
abbrev main_call7_v2 : Ref sig .tc := ⟨.hbm, 109, rfl⟩
abbrev main_call7_v3 : Ref sig .tc := ⟨.hbm, 110, rfl⟩
abbrev main_call7_v4 : Ref sig .tc := ⟨.hbm, 111, rfl⟩
abbrev main_call7_v5 : Ref sig .tc := ⟨.hbm, 112, rfl⟩
abbrev main_call7_v6 : Ref sig .tc := ⟨.hbm, 113, rfl⟩
abbrev main_call7_cst_1 : Ref sig .tc := ⟨.hbm, 114, rfl⟩
abbrev main_call7_v7 : Ref sig .tc := ⟨.hbm, 115, rfl⟩
abbrev main_call7_v8 : Ref sig .tc := ⟨.hbm, 116, rfl⟩
abbrev main_call7_v9 : Ref sig .tc := ⟨.hbm, 117, rfl⟩
abbrev main_call7_v10 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  slices_S21844x128_S4x128_0_0 : S21844x128.Slices ![0, 0] S4x128
  slices_S7x128x128_S1x128x128_0_0_0 : S7x128x128.Slices ![0, 0, 0] S1x128x128
  shapeCasts_S1x128x128_S128x128 : S1x128x128.ShapeCasts S128x128
  transposes_S128x128_S128x128_1_0 : S128x128.Transposes [1, 0] S128x128
  slices_S7x128_S1x128_0_0 : S7x128.Slices ![0, 0] S1x128
  shapeCasts_S1x128_S128 : S1x128.ShapeCasts S128
  bcast_S1x128_S4x128_0_1 : S1x128.BroadcastsInDim S4x128 (![0, 1] : Fin 2 → Fin S4x128.rank)
  bcast_S_S4x128 : S_.BroadcastsInDim S4x128 (![] : Fin 0 → Fin S4x128.rank)
  slices_S21844x128_S16x128_4_0 : S21844x128.Slices ![4, 0] S16x128
  slices_S7x128x128_S1x128x128_1_0_0 : S7x128x128.Slices ![1, 0, 0] S1x128x128
  slices_S7x128_S1x128_1_0 : S7x128.Slices ![1, 0] S1x128
  bcast_S1x128_S16x128_0_1 : S1x128.BroadcastsInDim S16x128 (![0, 1] : Fin 2 → Fin S16x128.rank)
  bcast_S_S16x128 : S_.BroadcastsInDim S16x128 (![] : Fin 0 → Fin S16x128.rank)
  slices_S21844x128_S64x128_20_0 : S21844x128.Slices ![20, 0] S64x128
  slices_S7x128x128_S1x128x128_2_0_0 : S7x128x128.Slices ![2, 0, 0] S1x128x128
  slices_S7x128_S1x128_2_0 : S7x128.Slices ![2, 0] S1x128
  bcast_S1x128_S64x128_0_1 : S1x128.BroadcastsInDim S64x128 (![0, 1] : Fin 2 → Fin S64x128.rank)
  bcast_S_S64x128 : S_.BroadcastsInDim S64x128 (![] : Fin 0 → Fin S64x128.rank)
  slices_S21844x128_S256x128_84_0 : S21844x128.Slices ![84, 0] S256x128
  slices_S7x128x128_S1x128x128_3_0_0 : S7x128x128.Slices ![3, 0, 0] S1x128x128
  slices_S7x128_S1x128_3_0 : S7x128.Slices ![3, 0] S1x128
  bcast_S1x128_S256x128_0_1 : S1x128.BroadcastsInDim S256x128 (![0, 1] : Fin 2 → Fin S256x128.rank)
  bcast_S_S256x128 : S_.BroadcastsInDim S256x128 (![] : Fin 0 → Fin S256x128.rank)
  slices_S21844x128_S1024x128_340_0 : S21844x128.Slices ![340, 0] S1024x128
  slices_S7x128x128_S1x128x128_4_0_0 : S7x128x128.Slices ![4, 0, 0] S1x128x128
  slices_S7x128_S1x128_4_0 : S7x128.Slices ![4, 0] S1x128
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  slices_S21844x128_S4096x128_1364_0 : S21844x128.Slices ![1364, 0] S4096x128
  slices_S7x128x128_S1x128x128_5_0_0 : S7x128x128.Slices ![5, 0, 0] S1x128x128
  slices_S7x128_S1x128_5_0 : S7x128.Slices ![5, 0] S1x128
  bcast_S_S4096x128 : S_.BroadcastsInDim S4096x128 (![] : Fin 0 → Fin S4096x128.rank)
  slices_S21844x128_S16384x128_5460_0 : S21844x128.Slices ![5460, 0] S16384x128
  slices_S7x128x128_S1x128x128_6_0_0 : S7x128x128.Slices ![6, 0, 0] S1x128x128
  slices_S7x128_S1x128_6_0 : S7x128.Slices ![6, 0] S1x128
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  concatenates_S4x128_S16x128_S64x128_S256x128_S1024x128_S4096x128_S16384x128_S21844x128_d0 : Shape.Concatenates [S4x128, S16x128, S64x128, S256x128, S1024x128, S4096x128, S16384x128] S21844x128 0
  shapeCasts_S4096x21844_S4096x5461x4 : S4096x21844.ShapeCasts S4096x5461x4
  reducesTo_S4096x5461x4_S4096x5461_d2 : S4096x5461x4.ReducesTo [2] S4096x5461
  h_S_ : 0 < S_.numel
  bcast_S_S4096x5461 : S_.BroadcastsInDim S4096x5461 (![] : Fin 0 → Fin S4096x5461.rank)
  bcast_S4096x5461_S4096x5461x1_0_1 : S4096x5461.BroadcastsInDim S4096x5461x1 (![0, 1] : Fin 2 → Fin S4096x5461x1.rank)
  bcast_S4096x5461x1_S4096x5461x4_0_1_2 : S4096x5461x1.BroadcastsInDim S4096x5461x4 (![0, 1, 2] : Fin 3 → Fin S4096x5461x4.rank)
  slices_S4096x5461x4_S4096x1x4_0_0_0 : S4096x5461x4.Slices ![0, 0, 0] S4096x1x4
  shapeCasts_S4096x1x4_S4096x4 : S4096x1x4.ShapeCasts S4096x4
  slices_S4096x5461x4_S4096x4x4_0_1_0 : S4096x5461x4.Slices ![0, 1, 0] S4096x4x4
  shapeCasts_S4096x4x4_S4096x16 : S4096x4x4.ShapeCasts S4096x16
  bcast_S4096x4_S4096x4x4_0_1 : S4096x4.BroadcastsInDim S4096x4x4 (![0, 1] : Fin 2 → Fin S4096x4x4.rank)
  slices_S4096x5461x4_S4096x16x4_0_5_0 : S4096x5461x4.Slices ![0, 5, 0] S4096x16x4
  shapeCasts_S4096x16x4_S4096x64 : S4096x16x4.ShapeCasts S4096x64
  bcast_S4096x16_S4096x16x4_0_1 : S4096x16.BroadcastsInDim S4096x16x4 (![0, 1] : Fin 2 → Fin S4096x16x4.rank)
  slices_S4096x5461x4_S4096x64x4_0_21_0 : S4096x5461x4.Slices ![0, 21, 0] S4096x64x4
  shapeCasts_S4096x64x4_S4096x256 : S4096x64x4.ShapeCasts S4096x256
  bcast_S4096x64_S4096x64x4_0_1 : S4096x64.BroadcastsInDim S4096x64x4 (![0, 1] : Fin 2 → Fin S4096x64x4.rank)
  slices_S4096x5461x4_S4096x256x4_0_85_0 : S4096x5461x4.Slices ![0, 85, 0] S4096x256x4
  shapeCasts_S4096x256x4_S4096x1024 : S4096x256x4.ShapeCasts S4096x1024
  bcast_S4096x256_S4096x256x4_0_1 : S4096x256.BroadcastsInDim S4096x256x4 (![0, 1] : Fin 2 → Fin S4096x256x4.rank)
  slices_S4096x5461x4_S4096x1024x4_0_341_0 : S4096x5461x4.Slices ![0, 341, 0] S4096x1024x4
  shapeCasts_S4096x1024x4_S4096x4096 : S4096x1024x4.ShapeCasts S4096x4096
  bcast_S4096x1024_S4096x1024x4_0_1 : S4096x1024.BroadcastsInDim S4096x1024x4 (![0, 1] : Fin 2 → Fin S4096x1024x4.rank)
  slices_S4096x5461x4_S4096x4096x4_0_1365_0 : S4096x5461x4.Slices ![0, 1365, 0] S4096x4096x4
  shapeCasts_S4096x4096x4_S4096x16384 : S4096x4096x4.ShapeCasts S4096x16384
  bcast_S4096x4096_S4096x4096x4_0_1 : S4096x4096.BroadcastsInDim S4096x4096x4 (![0, 1] : Fin 2 → Fin S4096x4096x4.rank)
  dot_S4096x64_S64x128_S4096x128_1_0_0_1_n_n_wf : DotDims.WF S4096x64 S64x128 S4096x128 [1] [0] [0] [1] [] []
  dot_S4x128_S128x128_S4x128_1_0_0_1_n_n_wf : DotDims.WF S4x128 S128x128 S4x128 [1] [0] [0] [1] [] []
  dot_S16x128_S128x128_S16x128_1_0_0_1_n_n_wf : DotDims.WF S16x128 S128x128 S16x128 [1] [0] [0] [1] [] []
  dot_S64x128_S128x128_S64x128_1_0_0_1_n_n_wf : DotDims.WF S64x128 S128x128 S64x128 [1] [0] [0] [1] [] []
  dot_S256x128_S128x128_S256x128_1_0_0_1_n_n_wf : DotDims.WF S256x128 S128x128 S256x128 [1] [0] [0] [1] [] []
  dot_S1024x128_S128x128_S1024x128_1_0_0_1_n_n_wf : DotDims.WF S1024x128 S128x128 S1024x128 [1] [0] [0] [1] [] []
  dot_S4096x128_S128x128_S4096x128_1_0_0_1_n_n_wf : DotDims.WF S4096x128 S128x128 S4096x128 [1] [0] [0] [1] [] []
  dot_S16384x128_S128x128_S16384x128_1_0_0_1_n_n_wf : DotDims.WF S16384x128 S128x128 S16384x128 [1] [0] [0] [1] [] []
  dot_S4096x128_S21844x128_S4096x21844_1_1_0_0_n_n_wf : DotDims.WF S4096x128 S21844x128 S4096x21844 [1] [1] [0] [0] [] []

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4x128_S128x128_S4x128_1_0_0_1_n_n : DotDims S4x128 S128x128 S4x128 where
  lhsContracting := [1]
  rhsContracting := [0]
  lhsNonContracting := [0]
  rhsNonContracting := [1]
  lhsBatch := []
  rhsBatch := []
  wf := dot_S4x128_S128x128_S4x128_1_0_0_1_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S4096x128_S21844x128_S4096x21844_1_1_0_0_n_n : DotDims S4096x128 S21844x128 S4096x21844 where
  lhsContracting := [1]
  rhsContracting := [1]
  lhsNonContracting := [0]
  rhsNonContracting := [0]
  lhsBatch := []
  rhsBatch := []
  wf := dot_S4096x128_S21844x128_S4096x21844_1_1_0_0_n_n_wf

class Facts : Prop extends Facts₀ where

variable [Facts]
-- ==== Proof.RefRunH1.lean ====
import proofs.«140810_j55551107006470_1_alg».proof.Proof.Gen.ReferenceIdeal
import proofs.«140810_j55551107006470_1_alg».proof.Proof.RefStages
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F] {V : Valuation τ sig (Elt F)}
  {x0 : (⟨S4096x64, .f32⟩ : BufTy).Contents (Elt F)} {x1 : (⟨S128x64, .f32⟩ : BufTy).Contents (Elt F)} {x2 : (⟨S128, .f32⟩ : BufTy).Contents (Elt F)}
  {x3 : (⟨S21844x128, .f32⟩ : BufTy).Contents (Elt F)} {x4 : (⟨S7x128x128, .f32⟩ : BufTy).Contents (Elt F)} {x5 : (⟨S7x128, .f32⟩ : BufTy).Contents (Elt F)}

def ops1 : List (HloOp τ sig (Elt F)) :=
  [ unary main_arg1 main_v0 (transpose S64x128 [1, 0] · transposes_S128x64_S64x128_1_0),
    binary main_arg0 main_v0 main_v1 (fun l r => Host.dotGeneral dot_S4096x64_S64x128_S4096x128_1_0_0_1_n_n none l r),
    unary main_arg2 main_v2 (broadcastInDim S1x128 ![1] bcast_S128_S1x128_1),
    unary main_v2 main_v3 (broadcastInDim S4096x128 ![0, 1] bcast_S1x128_S4096x128_0_1),
    binary main_v1 main_v3 main_v4 addf,
    unary main_arg3 main_v5 (extractStridedSlice S4x128 ![0, 0] · slices_S21844x128_S4x128_0_0),
    unary main_arg4 main_v6 (extractStridedSlice S1x128x128 ![0, 0, 0] · slices_S7x128x128_S1x128x128_0_0_0),
    reshape main_v6 main_v7 rfl shapeCasts_S1x128x128_S128x128,
    unary main_v7 main_v8 (transpose S128x128 [1, 0] · transposes_S128x128_S128x128_1_0),
    binary main_v5 main_v8 main_v9 (fun l r => Host.dotGeneral dot_S4x128_S128x128_S4x128_1_0_0_1_n_n none l r),
    unary main_arg5 main_v10 (extractStridedSlice S1x128 ![0, 0] · slices_S7x128_S1x128_0_0),
    reshape main_v10 main_v11 rfl shapeCasts_S1x128_S128,
    unary main_v11 main_v12 (broadcastInDim S1x128 ![1] bcast_S128_S1x128_1),
    unary main_v12 main_v13 (broadcastInDim S4x128 ![0, 1] bcast_S1x128_S4x128_0_1),
    binary main_v9 main_v13 main_v14 addf,
    TRef.nullary (TRef.of (T := ⟨S_, .f32⟩) main_call0_cst) (constant S_ .f32 0x00000000#32),
    TRef.unary (TRef.of (T := ⟨S_, .f32⟩) main_call0_cst) (TRef.of (T := ⟨S4x128, .f32⟩) main_call0_v0) (broadcastInDim S4x128 ![] bcast_S_S4x128),
    TRef.binary (TRef.of (T := ⟨S4x128, .f32⟩) main_v14) (TRef.of (T := ⟨S4x128, .f32⟩) main_call0_v0) (TRef.of (T := ⟨S4x128, .f32⟩) main_v15) maximumf ]

theorem ops1_ok : (ops1 (F := F)).Forall fun op => op.bufs ⊆ tcRefs τ sig ∧ op.fresh = ∅ := by
  simp only [ops1, List.Forall, nullary_bufs_sub, unary_bufs_sub, binary_bufs_sub, reshape_bufs_sub, true_and]
  repeat' constructor

abbrev ops1_W : List (Ref sig .tc) := [main_v0, main_v1, main_v2, main_v3, main_v4, main_v5, main_v6, main_v7, main_v8, main_v9, main_v10, main_v11, main_v12, main_v13, main_v14, main_call0_cst, main_call0_v0, main_v15]

theorem ops1_writes : (ops1 (F := F)).Forall fun op =>
    op.writes ⊆ (ops1_W.map (Proc.devRef (τ := τ) .tc)).toFinset := by
  simp only [ops1, List.Forall, nullary_writes, unary_writes, binary_writes, reshape_writes, Finset.singleton_subset_iff, List.mem_toFinset,
    List.mem_map_of_injective (Proc.devRef_injective _)]
  decide

theorem step1_main_v4
    (h_main_arg0 : V (Proc.devRef .tc main_arg0) = x0)
    (h_main_arg1 : V (Proc.devRef .tc main_arg1) = x1)
    (h_main_arg2 : V (Proc.devRef .tc main_arg2) = x2) :
    after ops1 V (Proc.devRef .tc main_v4) = ReadS.val_main_v4 (F := F) x0 x1 x2 := by
  unfold ops1
  after_results_simp
  simp only [h_main_arg0, h_main_arg1, h_main_arg2]
  rfl

theorem step1_main_v15
    (h_main_arg3 : V (Proc.devRef .tc main_arg3) = x3)
    (h_main_arg4 : V (Proc.devRef .tc main_arg4) = x4)
    (h_main_arg5 : V (Proc.devRef .tc main_arg5) = x5) :
    after ops1 V (Proc.devRef .tc main_v15) = ReadS.val_main_v15 (F := F) x3 x4 x5 := by
  unfold ops1
  after_results_simp
  simp only [h_main_arg3, h_main_arg4, h_main_arg5]
  rfl

def ops2 : List (HloOp τ sig (Elt F)) :=
  [ unary main_arg3 main_v16 (extractStridedSlice S16x128 ![4, 0] · slices_S21844x128_S16x128_4_0),
    unary main_arg4 main_v17 (extractStridedSlice S1x128x128 ![1, 0, 0] · slices_S7x128x128_S1x128x128_1_0_0),
    reshape main_v17 main_v18 rfl shapeCasts_S1x128x128_S128x128,
    unary main_v18 main_v19 (transpose S128x128 [1, 0] · transposes_S128x128_S128x128_1_0),
    binary main_v16 main_v19 main_v20 (fun l r => Host.dotGeneral dot_S16x128_S128x128_S16x128_1_0_0_1_n_n none l r),
    unary main_arg5 main_v21 (extractStridedSlice S1x128 ![1, 0] · slices_S7x128_S1x128_1_0),
    reshape main_v21 main_v22 rfl shapeCasts_S1x128_S128,
    unary main_v22 main_v23 (broadcastInDim S1x128 ![1] bcast_S128_S1x128_1),
    unary main_v23 main_v24 (broadcastInDim S16x128 ![0, 1] bcast_S1x128_S16x128_0_1),
    binary main_v20 main_v24 main_v25 addf,
    TRef.nullary (TRef.of (T := ⟨S_, .f32⟩) main_call1_cst) (constant S_ .f32 0x00000000#32),
    TRef.unary (TRef.of (T := ⟨S_, .f32⟩) main_call1_cst) (TRef.of (T := ⟨S16x128, .f32⟩) main_call1_v0) (broadcastInDim S16x128 ![] bcast_S_S16x128),
    TRef.binary (TRef.of (T := ⟨S16x128, .f32⟩) main_v25) (TRef.of (T := ⟨S16x128, .f32⟩) main_call1_v0) (TRef.of (T := ⟨S16x128, .f32⟩) main_v26) maximumf ]

theorem ops2_ok : (ops2 (F := F)).Forall fun op => op.bufs ⊆ tcRefs τ sig ∧ op.fresh = ∅ := by
  simp only [ops2, List.Forall, nullary_bufs_sub, unary_bufs_sub, binary_bufs_sub, reshape_bufs_sub, true_and]
  repeat' constructor

abbrev ops2_W : List (Ref sig .tc) := [main_v16, main_v17, main_v18, main_v19, main_v20, main_v21, main_v22, main_v23, main_v24, main_v25, main_call1_cst, main_call1_v0, main_v26]

theorem ops2_writes : (ops2 (F := F)).Forall fun op =>
    op.writes ⊆ (ops2_W.map (Proc.devRef (τ := τ) .tc)).toFinset := by
  simp only [ops2, List.Forall, nullary_writes, unary_writes, binary_writes, reshape_writes, Finset.singleton_subset_iff, List.mem_toFinset,
    List.mem_map_of_injective (Proc.devRef_injective _)]
  decide

theorem step2_main_v26
    (h_main_arg3 : V (Proc.devRef .tc main_arg3) = x3)
    (h_main_arg4 : V (Proc.devRef .tc main_arg4) = x4)
    (h_main_arg5 : V (Proc.devRef .tc main_arg5) = x5) :
    after ops2 V (Proc.devRef .tc main_v26) = ReadS.val_main_v26 (F := F) x3 x4 x5 := by
  unfold ops2
  after_results_simp
  simp only [h_main_arg3, h_main_arg4, h_main_arg5]
  rfl

def ops3 : List (HloOp τ sig (Elt F)) :=
  [ unary main_arg3 main_v27 (extractStridedSlice S64x128 ![20, 0] · slices_S21844x128_S64x128_20_0),
    unary main_arg4 main_v28 (extractStridedSlice S1x128x128 ![2, 0, 0] · slices_S7x128x128_S1x128x128_2_0_0),
    reshape main_v28 main_v29 rfl shapeCasts_S1x128x128_S128x128,
    unary main_v29 main_v30 (transpose S128x128 [1, 0] · transposes_S128x128_S128x128_1_0),
    binary main_v27 main_v30 main_v31 (fun l r => Host.dotGeneral dot_S64x128_S128x128_S64x128_1_0_0_1_n_n none l r),
    unary main_arg5 main_v32 (extractStridedSlice S1x128 ![2, 0] · slices_S7x128_S1x128_2_0),
    reshape main_v32 main_v33 rfl shapeCasts_S1x128_S128,
    unary main_v33 main_v34 (broadcastInDim S1x128 ![1] bcast_S128_S1x128_1),
    unary main_v34 main_v35 (broadcastInDim S64x128 ![0, 1] bcast_S1x128_S64x128_0_1),
    binary main_v31 main_v35 main_v36 addf,
    TRef.nullary (TRef.of (T := ⟨S_, .f32⟩) main_call2_cst) (constant S_ .f32 0x00000000#32),
    TRef.unary (TRef.of (T := ⟨S_, .f32⟩) main_call2_cst) (TRef.of (T := ⟨S64x128, .f32⟩) main_call2_v0) (broadcastInDim S64x128 ![] bcast_S_S64x128),
    TRef.binary (TRef.of (T := ⟨S64x128, .f32⟩) main_v36) (TRef.of (T := ⟨S64x128, .f32⟩) main_call2_v0) (TRef.of (T := ⟨S64x128, .f32⟩) main_v37) maximumf ]

theorem ops3_ok : (ops3 (F := F)).Forall fun op => op.bufs ⊆ tcRefs τ sig ∧ op.fresh = ∅ := by
  simp only [ops3, List.Forall, nullary_bufs_sub, unary_bufs_sub, binary_bufs_sub, reshape_bufs_sub, true_and]
  repeat' constructor

abbrev ops3_W : List (Ref sig .tc) := [main_v27, main_v28, main_v29, main_v30, main_v31, main_v32, main_v33, main_v34, main_v35, main_v36, main_call2_cst, main_call2_v0, main_v37]

theorem ops3_writes : (ops3 (F := F)).Forall fun op =>
    op.writes ⊆ (ops3_W.map (Proc.devRef (τ := τ) .tc)).toFinset := by
  simp only [ops3, List.Forall, nullary_writes, unary_writes, binary_writes, reshape_writes, Finset.singleton_subset_iff, List.mem_toFinset,
    List.mem_map_of_injective (Proc.devRef_injective _)]
  decide

theorem step3_main_v37
    (h_main_arg3 : V (Proc.devRef .tc main_arg3) = x3)
    (h_main_arg4 : V (Proc.devRef .tc main_arg4) = x4)
    (h_main_arg5 : V (Proc.devRef .tc main_arg5) = x5) :
    after ops3 V (Proc.devRef .tc main_v37) = ReadS.val_main_v37 (F := F) x3 x4 x5 := by
  unfold ops3
  after_results_simp
  simp only [h_main_arg3, h_main_arg4, h_main_arg5]
  rfl

def ops4 : List (HloOp τ sig (Elt F)) :=
  [ unary main_arg3 main_v38 (extractStridedSlice S256x128 ![84, 0] · slices_S21844x128_S256x128_84_0),
    unary main_arg4 main_v39 (extractStridedSlice S1x128x128 ![3, 0, 0] · slices_S7x128x128_S1x128x128_3_0_0),
    reshape main_v39 main_v40 rfl shapeCasts_S1x128x128_S128x128,
    unary main_v40 main_v41 (transpose S128x128 [1, 0] · transposes_S128x128_S128x128_1_0),
    binary main_v38 main_v41 main_v42 (fun l r => Host.dotGeneral dot_S256x128_S128x128_S256x128_1_0_0_1_n_n none l r),
    unary main_arg5 main_v43 (extractStridedSlice S1x128 ![3, 0] · slices_S7x128_S1x128_3_0),
    reshape main_v43 main_v44 rfl shapeCasts_S1x128_S128,
    unary main_v44 main_v45 (broadcastInDim S1x128 ![1] bcast_S128_S1x128_1),
    unary main_v45 main_v46 (broadcastInDim S256x128 ![0, 1] bcast_S1x128_S256x128_0_1),
    binary main_v42 main_v46 main_v47 addf,
    TRef.nullary (TRef.of (T := ⟨S_, .f32⟩) main_call3_cst) (constant S_ .f32 0x00000000#32),
    TRef.unary (TRef.of (T := ⟨S_, .f32⟩) main_call3_cst) (TRef.of (T := ⟨S256x128, .f32⟩) main_call3_v0) (broadcastInDim S256x128 ![] bcast_S_S256x128),
    TRef.binary (TRef.of (T := ⟨S256x128, .f32⟩) main_v47) (TRef.of (T := ⟨S256x128, .f32⟩) main_call3_v0) (TRef.of (T := ⟨S256x128, .f32⟩) main_v48) maximumf ]

theorem ops4_ok : (ops4 (F := F)).Forall fun op => op.bufs ⊆ tcRefs τ sig ∧ op.fresh = ∅ := by
  simp only [ops4, List.Forall, nullary_bufs_sub, unary_bufs_sub, binary_bufs_sub, reshape_bufs_sub, true_and]
  repeat' constructor

abbrev ops4_W : List (Ref sig .tc) := [main_v38, main_v39, main_v40, main_v41, main_v42, main_v43, main_v44, main_v45, main_v46, main_v47, main_call3_cst, main_call3_v0, main_v48]

theorem ops4_writes : (ops4 (F := F)).Forall fun op =>
    op.writes ⊆ (ops4_W.map (Proc.devRef (τ := τ) .tc)).toFinset := by
  simp only [ops4, List.Forall, nullary_writes, unary_writes, binary_writes, reshape_writes, Finset.singleton_subset_iff, List.mem_toFinset,
    List.mem_map_of_injective (Proc.devRef_injective _)]
  decide

theorem step4_main_v48
    (h_main_arg3 : V (Proc.devRef .tc main_arg3) = x3)
    (h_main_arg4 : V (Proc.devRef .tc main_arg4) = x4)
    (h_main_arg5 : V (Proc.devRef .tc main_arg5) = x5) :
    after ops4 V (Proc.devRef .tc main_v48) = ReadS.val_main_v48 (F := F) x3 x4 x5 := by
  unfold ops4
  after_results_simp
  simp only [h_main_arg3, h_main_arg4, h_main_arg5]
  rfl

def ops5 : List (HloOp τ sig (Elt F)) :=
  [ unary main_arg3 main_v49 (extractStridedSlice S1024x128 ![340, 0] · slices_S21844x128_S1024x128_340_0),
    unary main_arg4 main_v50 (extractStridedSlice S1x128x128 ![4, 0, 0] · slices_S7x128x128_S1x128x128_4_0_0),
    reshape main_v50 main_v51 rfl shapeCasts_S1x128x128_S128x128,
    unary main_v51 main_v52 (transpose S128x128 [1, 0] · transposes_S128x128_S128x128_1_0),
    binary main_v49 main_v52 main_v53 (fun l r => Host.dotGeneral dot_S1024x128_S128x128_S1024x128_1_0_0_1_n_n none l r),
    unary main_arg5 main_v54 (extractStridedSlice S1x128 ![4, 0] · slices_S7x128_S1x128_4_0),
    reshape main_v54 main_v55 rfl shapeCasts_S1x128_S128,
    unary main_v55 main_v56 (broadcastInDim S1x128 ![1] bcast_S128_S1x128_1),
    unary main_v56 main_v57 (broadcastInDim S1024x128 ![0, 1] bcast_S1x128_S1024x128_0_1),
    binary main_v53 main_v57 main_v58 addf,
    TRef.nullary (TRef.of (T := ⟨S_, .f32⟩) main_call4_cst) (constant S_ .f32 0x00000000#32),
    TRef.unary (TRef.of (T := ⟨S_, .f32⟩) main_call4_cst) (TRef.of (T := ⟨S1024x128, .f32⟩) main_call4_v0) (broadcastInDim S1024x128 ![] bcast_S_S1024x128),
    TRef.binary (TRef.of (T := ⟨S1024x128, .f32⟩) main_v58) (TRef.of (T := ⟨S1024x128, .f32⟩) main_call4_v0) (TRef.of (T := ⟨S1024x128, .f32⟩) main_v59) maximumf ]

theorem ops5_ok : (ops5 (F := F)).Forall fun op => op.bufs ⊆ tcRefs τ sig ∧ op.fresh = ∅ := by
  simp only [ops5, List.Forall, nullary_bufs_sub, unary_bufs_sub, binary_bufs_sub, reshape_bufs_sub, true_and]
  repeat' constructor

abbrev ops5_W : List (Ref sig .tc) := [main_v49, main_v50, main_v51, main_v52, main_v53, main_v54, main_v55, main_v56, main_v57, main_v58, main_call4_cst, main_call4_v0, main_v59]

theorem ops5_writes : (ops5 (F := F)).Forall fun op =>
    op.writes ⊆ (ops5_W.map (Proc.devRef (τ := τ) .tc)).toFinset := by
  simp only [ops5, List.Forall, nullary_writes, unary_writes, binary_writes, reshape_writes, Finset.singleton_subset_iff, List.mem_toFinset,
    List.mem_map_of_injective (Proc.devRef_injective _)]
  decide

theorem step5_main_v59
    (h_main_arg3 : V (Proc.devRef .tc main_arg3) = x3)
    (h_main_arg4 : V (Proc.devRef .tc main_arg4) = x4)
    (h_main_arg5 : V (Proc.devRef .tc main_arg5) = x5) :
    after ops5 V (Proc.devRef .tc main_v59) = ReadS.val_main_v59 (F := F) x3 x4 x5 := by
  unfold ops5
  after_results_simp
  simp only [h_main_arg3, h_main_arg4, h_main_arg5]
  rfl

def ops6 : List (HloOp τ sig (Elt F)) :=
  [ unary main_arg3 main_v60 (extractStridedSlice S4096x128 ![1364, 0] · slices_S21844x128_S4096x128_1364_0),
    unary main_arg4 main_v61 (extractStridedSlice S1x128x128 ![5, 0, 0] · slices_S7x128x128_S1x128x128_5_0_0),
    reshape main_v61 main_v62 rfl shapeCasts_S1x128x128_S128x128,
    unary main_v62 main_v63 (transpose S128x128 [1, 0] · transposes_S128x128_S128x128_1_0),
    binary main_v60 main_v63 main_v64 (fun l r => Host.dotGeneral dot_S4096x128_S128x128_S4096x128_1_0_0_1_n_n none l r),
    unary main_arg5 main_v65 (extractStridedSlice S1x128 ![5, 0] · slices_S7x128_S1x128_5_0),
    reshape main_v65 main_v66 rfl shapeCasts_S1x128_S128,
    unary main_v66 main_v67 (broadcastInDim S1x128 ![1] bcast_S128_S1x128_1),
    unary main_v67 main_v68 (broadcastInDim S4096x128 ![0, 1] bcast_S1x128_S4096x128_0_1),
    binary main_v64 main_v68 main_v69 addf,
    TRef.nullary (TRef.of (T := ⟨S_, .f32⟩) main_call5_cst) (constant S_ .f32 0x00000000#32),
    TRef.unary (TRef.of (T := ⟨S_, .f32⟩) main_call5_cst) (TRef.of (T := ⟨S4096x128, .f32⟩) main_call5_v0) (broadcastInDim S4096x128 ![] bcast_S_S4096x128),
    TRef.binary (TRef.of (T := ⟨S4096x128, .f32⟩) main_v69) (TRef.of (T := ⟨S4096x128, .f32⟩) main_call5_v0) (TRef.of (T := ⟨S4096x128, .f32⟩) main_v70) maximumf ]

theorem ops6_ok : (ops6 (F := F)).Forall fun op => op.bufs ⊆ tcRefs τ sig ∧ op.fresh = ∅ := by
  simp only [ops6, List.Forall, nullary_bufs_sub, unary_bufs_sub, binary_bufs_sub, reshape_bufs_sub, true_and]
  repeat' constructor

abbrev ops6_W : List (Ref sig .tc) := [main_v60, main_v61, main_v62, main_v63, main_v64, main_v65, main_v66, main_v67, main_v68, main_v69, main_call5_cst, main_call5_v0, main_v70]

theorem ops6_writes : (ops6 (F := F)).Forall fun op =>
    op.writes ⊆ (ops6_W.map (Proc.devRef (τ := τ) .tc)).toFinset := by
  simp only [ops6, List.Forall, nullary_writes, unary_writes, binary_writes, reshape_writes, Finset.singleton_subset_iff, List.mem_toFinset,
    List.mem_map_of_injective (Proc.devRef_injective _)]
  decide

theorem step6_main_v70
    (h_main_arg3 : V (Proc.devRef .tc main_arg3) = x3)
    (h_main_arg4 : V (Proc.devRef .tc main_arg4) = x4)
    (h_main_arg5 : V (Proc.devRef .tc main_arg5) = x5) :
    after ops6 V (Proc.devRef .tc main_v70) = ReadS.val_main_v70 (F := F) x3 x4 x5 := by
  unfold ops6
  after_results_simp
  simp only [h_main_arg3, h_main_arg4, h_main_arg5]
  rfl

def ops7 : List (HloOp τ sig (Elt F)) :=
  [ unary main_arg3 main_v71 (extractStridedSlice S16384x128 ![5460, 0] · slices_S21844x128_S16384x128_5460_0),
    unary main_arg4 main_v72 (extractStridedSlice S1x128x128 ![6, 0, 0] · slices_S7x128x128_S1x128x128_6_0_0),
    reshape main_v72 main_v73 rfl shapeCasts_S1x128x128_S128x128,
    unary main_v73 main_v74 (transpose S128x128 [1, 0] · transposes_S128x128_S128x128_1_0),
    binary main_v71 main_v74 main_v75 (fun l r => Host.dotGeneral dot_S16384x128_S128x128_S16384x128_1_0_0_1_n_n none l r),
    unary main_arg5 main_v76 (extractStridedSlice S1x128 ![6, 0] · slices_S7x128_S1x128_6_0),
    reshape main_v76 main_v77 rfl shapeCasts_S1x128_S128,
    unary main_v77 main_v78 (broadcastInDim S1x128 ![1] bcast_S128_S1x128_1),
    unary main_v78 main_v79 (broadcastInDim S16384x128 ![0, 1] bcast_S1x128_S16384x128_0_1),
    binary main_v75 main_v79 main_v80 addf,
    TRef.nullary (TRef.of (T := ⟨S_, .f32⟩) main_call6_cst) (constant S_ .f32 0x00000000#32),
    TRef.unary (TRef.of (T := ⟨S_, .f32⟩) main_call6_cst) (TRef.of (T := ⟨S16384x128, .f32⟩) main_call6_v0) (broadcastInDim S16384x128 ![] bcast_S_S16384x128),
    TRef.binary (TRef.of (T := ⟨S16384x128, .f32⟩) main_v80) (TRef.of (T := ⟨S16384x128, .f32⟩) main_call6_v0) (TRef.of (T := ⟨S16384x128, .f32⟩) main_v81) maximumf ]

theorem ops7_ok : (ops7 (F := F)).Forall fun op => op.bufs ⊆ tcRefs τ sig ∧ op.fresh = ∅ := by
  simp only [ops7, List.Forall, nullary_bufs_sub, unary_bufs_sub, binary_bufs_sub, reshape_bufs_sub, true_and]
  repeat' constructor

abbrev ops7_W : List (Ref sig .tc) := [main_v71, main_v72, main_v73, main_v74, main_v75, main_v76, main_v77, main_v78, main_v79, main_v80, main_call6_cst, main_call6_v0, main_v81]

theorem ops7_writes : (ops7 (F := F)).Forall fun op =>
    op.writes ⊆ (ops7_W.map (Proc.devRef (τ := τ) .tc)).toFinset := by
  simp only [ops7, List.Forall, nullary_writes, unary_writes, binary_writes, reshape_writes, Finset.singleton_subset_iff, List.mem_toFinset,
    List.mem_map_of_injective (Proc.devRef_injective _)]
  decide

theorem step7_main_v81
    (h_main_arg3 : V (Proc.devRef .tc main_arg3) = x3)
    (h_main_arg4 : V (Proc.devRef .tc main_arg4) = x4)
    (h_main_arg5 : V (Proc.devRef .tc main_arg5) = x5) :
    after ops7 V (Proc.devRef .tc main_v81) = ReadS.val_main_v81 (F := F) x3 x4 x5 := by
  unfold ops7
  after_results_simp
  simp only [h_main_arg3, h_main_arg4, h_main_arg5]
  rfl

end Cert.ReferenceIdeal.RunH

end
-- ==== Proof.RefRunH2.lean ====
import proofs.«140810_j55551107006470_1_alg».proof.Proof.Gen.ReferenceIdeal
import proofs.«140810_j55551107006470_1_alg».proof.Proof.RefStages
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F] {V : Valuation τ sig (Elt F)}
  {x0 : (⟨S4096x64, .f32⟩ : BufTy).Contents (Elt F)} {x1 : (⟨S128x64, .f32⟩ : BufTy).Contents (Elt F)} {x2 : (⟨S128, .f32⟩ : BufTy).Contents (Elt F)}
  {x3 : (⟨S21844x128, .f32⟩ : BufTy).Contents (Elt F)} {x4 : (⟨S7x128x128, .f32⟩ : BufTy).Contents (Elt F)} {x5 : (⟨S7x128, .f32⟩ : BufTy).Contents (Elt F)}

def ops8 : List (HloOp τ sig (Elt F)) :=
  [ nary ![main_v15, main_v26, main_v37, main_v48, main_v59, main_v70, main_v81] main_v82 (fun u => concatenate S21844x128 0 [⟨S4x128, u 0⟩, ⟨S16x128, u 1⟩, ⟨S64x128, u 2⟩, ⟨S256x128, u 3⟩, ⟨S1024x128, u 4⟩, ⟨S4096x128, u 5⟩, ⟨S16384x128, u 6⟩] concatenates_S4x128_S16x128_S64x128_S256x128_S1024x128_S4096x128_S16384x128_S21844x128_d0),
    binary main_v4 main_v82 main_v83 (fun l r => Host.dotGeneral dot_S4096x128_S21844x128_S4096x21844_1_1_0_0_n_n none l r),
    reshape main_v83 main_v84 rfl shapeCasts_S4096x21844_S4096x5461x4 ]

theorem ops8_ok : (ops8 (F := F)).Forall fun op => op.bufs ⊆ tcRefs τ sig ∧ op.fresh = ∅ := by
  simp only [ops8, List.Forall, binary_bufs_sub, reshape_bufs_sub, nary_bufs_sub, true_and]
  repeat' constructor

abbrev ops8_W : List (Ref sig .tc) := [main_v82, main_v83, main_v84]

theorem ops8_writes : (ops8 (F := F)).Forall fun op =>
    op.writes ⊆ (ops8_W.map (Proc.devRef (τ := τ) .tc)).toFinset := by
  simp only [ops8, List.Forall, binary_writes, reshape_writes, nary_writes, Finset.singleton_subset_iff, List.mem_toFinset,
    List.mem_map_of_injective (Proc.devRef_injective _)]
  decide

theorem step8_main_v84
    (h_main_v4 : V (Proc.devRef .tc main_v4) = ReadS.val_main_v4 (F := F) x0 x1 x2)
    (h_main_v15 : V (Proc.devRef .tc main_v15) = ReadS.val_main_v15 (F := F) x3 x4 x5)
    (h_main_v26 : V (Proc.devRef .tc main_v26) = ReadS.val_main_v26 (F := F) x3 x4 x5)
    (h_main_v37 : V (Proc.devRef .tc main_v37) = ReadS.val_main_v37 (F := F) x3 x4 x5)
    (h_main_v48 : V (Proc.devRef .tc main_v48) = ReadS.val_main_v48 (F := F) x3 x4 x5)
    (h_main_v59 : V (Proc.devRef .tc main_v59) = ReadS.val_main_v59 (F := F) x3 x4 x5)
    (h_main_v70 : V (Proc.devRef .tc main_v70) = ReadS.val_main_v70 (F := F) x3 x4 x5)
    (h_main_v81 : V (Proc.devRef .tc main_v81) = ReadS.val_main_v81 (F := F) x3 x4 x5) :
    after ops8 V (Proc.devRef .tc main_v84) = ReadS.val_main_v84 (F := F) x0 x1 x2 x3 x4 x5 := by
  unfold ops8
  after_results_simp
  try dsimp only [Matrix.cons_val]
  generalize V (Proc.devRef .tc main_v4) = y at h_main_v4 ⊢
  subst h_main_v4
  generalize V (Proc.devRef .tc main_v15) = y at h_main_v15 ⊢
  subst h_main_v15
  generalize V (Proc.devRef .tc main_v26) = y at h_main_v26 ⊢
  subst h_main_v26
  generalize V (Proc.devRef .tc main_v37) = y at h_main_v37 ⊢
  subst h_main_v37
  generalize V (Proc.devRef .tc main_v48) = y at h_main_v48 ⊢
  subst h_main_v48
  generalize V (Proc.devRef .tc main_v59) = y at h_main_v59 ⊢
  subst h_main_v59
  generalize V (Proc.devRef .tc main_v70) = y at h_main_v70 ⊢
  subst h_main_v70
  generalize V (Proc.devRef .tc main_v81) = y at h_main_v81 ⊢
  subst h_main_v81
  rfl

def ops9 : List (HloOp τ sig (Elt F)) :=
  [ TRef.nullary (TRef.of (T := ⟨S_, .f32⟩) main_call7_cst) (constant S_ .f32 0xFF800000#32),
    TRef.binary (TRef.of (T := ⟨S4096x5461x4, .f32⟩) main_v84) (TRef.of (T := ⟨S_, .f32⟩) main_call7_cst) (TRef.of (T := ⟨S4096x5461, .f32⟩) main_call7_v0) (fun x v => Host.reduce FloatOps.maximumf x v reducesTo_S4096x5461x4_S4096x5461_d2 h_S_) ]

theorem ops9_ok : (ops9 (F := F)).Forall fun op => op.bufs ⊆ tcRefs τ sig ∧ op.fresh = ∅ := by
  simp only [ops9, List.Forall, nullary_bufs_sub, binary_bufs_sub, true_and]
  repeat' constructor

abbrev ops9_W : List (Ref sig .tc) := [main_call7_cst, main_call7_v0]

theorem ops9_writes : (ops9 (F := F)).Forall fun op =>
    op.writes ⊆ (ops9_W.map (Proc.devRef (τ := τ) .tc)).toFinset := by
  simp only [ops9, List.Forall, nullary_writes, binary_writes, Finset.singleton_subset_iff, List.mem_toFinset,
    List.mem_map_of_injective (Proc.devRef_injective _)]
  decide

theorem step9_main_call7_v0
    (h_main_v84 : V (Proc.devRef .tc main_v84) = ReadS.val_main_v84 (F := F) x0 x1 x2 x3 x4 x5) :
    after ops9 V (Proc.devRef .tc main_call7_v0) = ReadS.val_main_call7_v0 (F := F) x0 x1 x2 x3 x4 x5 := by
  unfold ops9
  after_results_simp
  try simp only [TRef.ofBuf, TRef.toBuf, cast_eq]
  simp only [h_main_v84]
  rfl

def ops14 : List (HloOp τ sig (Elt F)) :=
  [ TRef.nullary (TRef.of (T := ⟨S_, .f32⟩) main_call7_cst_0) (constant S_ .f32 0xFF800000#32),
    TRef.unary (TRef.of (T := ⟨S_, .f32⟩) main_call7_cst_0) (TRef.of (T := ⟨S4096x5461, .f32⟩) main_call7_v1) (broadcastInDim S4096x5461 ![] bcast_S_S4096x5461),
    TRef.binary (TRef.of (T := ⟨S4096x5461, .f32⟩) main_call7_v1) (TRef.of (T := ⟨S4096x5461, .f32⟩) main_call7_v0) (TRef.of (T := ⟨S4096x5461, .f32⟩) main_call7_v2) maximumf ]

theorem ops14_ok : (ops14 (F := F)).Forall fun op => op.bufs ⊆ tcRefs τ sig ∧ op.fresh = ∅ := by
  simp only [ops14, List.Forall, nullary_bufs_sub, unary_bufs_sub, binary_bufs_sub, true_and]
  repeat' constructor

abbrev ops14_W : List (Ref sig .tc) := [main_call7_cst_0, main_call7_v1, main_call7_v2]

theorem ops14_writes : (ops14 (F := F)).Forall fun op =>
    op.writes ⊆ (ops14_W.map (Proc.devRef (τ := τ) .tc)).toFinset := by
  simp only [ops14, List.Forall, nullary_writes, unary_writes, binary_writes, Finset.singleton_subset_iff, List.mem_toFinset,
    List.mem_map_of_injective (Proc.devRef_injective _)]
  decide

theorem step14_main_call7_v2
    (h_main_call7_v0 : V (Proc.devRef .tc main_call7_v0) = ReadS.val_main_call7_v0 (F := F) x0 x1 x2 x3 x4 x5) :
    after ops14 V (Proc.devRef .tc main_call7_v2) = ReadS.val_main_call7_v2 (F := F) x0 x1 x2 x3 x4 x5 := by
  unfold ops14
  after_results_simp
  try simp only [TRef.ofBuf, TRef.toBuf, cast_eq]
  simp only [h_main_call7_v0]
  rfl

def ops12 : List (HloOp τ sig (Elt F)) :=
  [ TRef.unary (TRef.of (T := ⟨S4096x5461, .f32⟩) main_call7_v2) (TRef.of (T := ⟨S4096x5461x1, .f32⟩) main_call7_v3) (broadcastInDim S4096x5461x1 ![0, 1] bcast_S4096x5461_S4096x5461x1_0_1),
    TRef.unary (TRef.of (T := ⟨S4096x5461x1, .f32⟩) main_call7_v3) (TRef.of (T := ⟨S4096x5461x4, .f32⟩) main_call7_v4) (broadcastInDim S4096x5461x4 ![0, 1, 2] bcast_S4096x5461x1_S4096x5461x4_0_1_2),
    TRef.binary (TRef.of (T := ⟨S4096x5461x4, .f32⟩) main_v84) (TRef.of (T := ⟨S4096x5461x4, .f32⟩) main_call7_v4) (TRef.of (T := ⟨S4096x5461x4, .f32⟩) main_call7_v5) subf,
    TRef.unary (TRef.of (T := ⟨S4096x5461x4, .f32⟩) main_call7_v5) (TRef.of (T := ⟨S4096x5461x4, .f32⟩) main_call7_v6) Host.exp ]

theorem ops12_ok : (ops12 (F := F)).Forall fun op => op.bufs ⊆ tcRefs τ sig ∧ op.fresh = ∅ := by
  simp only [ops12, List.Forall, unary_bufs_sub, binary_bufs_sub, true_and]
  repeat' constructor

abbrev ops12_W : List (Ref sig .tc) := [main_call7_v3, main_call7_v4, main_call7_v5, main_call7_v6]

theorem ops12_writes : (ops12 (F := F)).Forall fun op =>
    op.writes ⊆ (ops12_W.map (Proc.devRef (τ := τ) .tc)).toFinset := by
  simp only [ops12, List.Forall, unary_writes, binary_writes, Finset.singleton_subset_iff, List.mem_toFinset,
    List.mem_map_of_injective (Proc.devRef_injective _)]
  decide

theorem step12_main_call7_v5
    (h_main_v84 : V (Proc.devRef .tc main_v84) = ReadS.val_main_v84 (F := F) x0 x1 x2 x3 x4 x5)
    (h_main_call7_v2 : V (Proc.devRef .tc main_call7_v2) = ReadS.val_main_call7_v2 (F := F) x0 x1 x2 x3 x4 x5) :
    after ops12 V (Proc.devRef .tc main_call7_v5) = ReadS.val_main_call7_v5 (F := F) x0 x1 x2 x3 x4 x5 := by
  unfold ops12
  after_results_simp
  try simp only [TRef.ofBuf, TRef.toBuf, cast_eq]
  simp only [h_main_v84, h_main_call7_v2]
  rfl

theorem step12_main_call7_v6
    (h_main_v84 : V (Proc.devRef .tc main_v84) = ReadS.val_main_v84 (F := F) x0 x1 x2 x3 x4 x5)
    (h_main_call7_v2 : V (Proc.devRef .tc main_call7_v2) = ReadS.val_main_call7_v2 (F := F) x0 x1 x2 x3 x4 x5) :
    after ops12 V (Proc.devRef .tc main_call7_v6) = ReadS.val_main_call7_v6 (F := F) x0 x1 x2 x3 x4 x5 := by
  unfold ops12
  after_results_simp
  try simp only [TRef.ofBuf, TRef.toBuf, cast_eq]
  simp only [h_main_v84, h_main_call7_v2]
  rfl

def ops13 : List (HloOp τ sig (Elt F)) :=
  [ TRef.nullary (TRef.of (T := ⟨S_, .f32⟩) main_call7_cst_1) (constant S_ .f32 0x00000000#32),
    TRef.binary (TRef.of (T := ⟨S4096x5461x4, .f32⟩) main_call7_v6) (TRef.of (T := ⟨S_, .f32⟩) main_call7_cst_1) (TRef.of (T := ⟨S4096x5461, .f32⟩) main_call7_v7) (fun x v => Host.reduceAdd x v reducesTo_S4096x5461x4_S4096x5461_d2 h_S_),
    TRef.unary (TRef.of (T := ⟨S4096x5461, .f32⟩) main_call7_v7) (TRef.of (T := ⟨S4096x5461x1, .f32⟩) main_call7_v8) (broadcastInDim S4096x5461x1 ![0, 1] bcast_S4096x5461_S4096x5461x1_0_1),
    TRef.unary (TRef.of (T := ⟨S4096x5461x1, .f32⟩) main_call7_v8) (TRef.of (T := ⟨S4096x5461x1, .f32⟩) main_call7_v9) Host.log,
    TRef.unary (TRef.of (T := ⟨S4096x5461x1, .f32⟩) main_call7_v9) (TRef.of (T := ⟨S4096x5461x4, .f32⟩) main_call7_v10) (broadcastInDim S4096x5461x4 ![0, 1, 2] bcast_S4096x5461x1_S4096x5461x4_0_1_2),
    TRef.binary (TRef.of (T := ⟨S4096x5461x4, .f32⟩) main_call7_v5) (TRef.of (T := ⟨S4096x5461x4, .f32⟩) main_call7_v10) (TRef.of (T := ⟨S4096x5461x4, .f32⟩) main_v85) subf ]

theorem ops13_ok : (ops13 (F := F)).Forall fun op => op.bufs ⊆ tcRefs τ sig ∧ op.fresh = ∅ := by
  simp only [ops13, List.Forall, nullary_bufs_sub, unary_bufs_sub, binary_bufs_sub, true_and]
  repeat' constructor

abbrev ops13_W : List (Ref sig .tc) := [main_call7_cst_1, main_call7_v7, main_call7_v8, main_call7_v9, main_call7_v10, main_v85]

theorem ops13_writes : (ops13 (F := F)).Forall fun op =>
    op.writes ⊆ (ops13_W.map (Proc.devRef (τ := τ) .tc)).toFinset := by
  simp only [ops13, List.Forall, nullary_writes, unary_writes, binary_writes, Finset.singleton_subset_iff, List.mem_toFinset,
    List.mem_map_of_injective (Proc.devRef_injective _)]
  decide

theorem step13_main_v85
    (h_main_call7_v5 : V (Proc.devRef .tc main_call7_v5) = ReadS.val_main_call7_v5 (F := F) x0 x1 x2 x3 x4 x5)
    (h_main_call7_v6 : V (Proc.devRef .tc main_call7_v6) = ReadS.val_main_call7_v6 (F := F) x0 x1 x2 x3 x4 x5) :
    after ops13 V (Proc.devRef .tc main_v85) = ReadS.val_main_v85 (F := F) x0 x1 x2 x3 x4 x5 := by
  unfold ops13
  after_results_simp
  try simp only [TRef.ofBuf, TRef.toBuf, cast_eq]
  simp only [h_main_call7_v5, h_main_call7_v6]
  rfl

end Cert.ReferenceIdeal.RunH

end
-- ==== Proof.RefRunH3.lean ====
import proofs.«140810_j55551107006470_1_alg».proof.Proof.Gen.ReferenceIdeal
import proofs.«140810_j55551107006470_1_alg».proof.Proof.RefStages
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F] {V : Valuation τ sig (Elt F)}
  {x0 : (⟨S4096x64, .f32⟩ : BufTy).Contents (Elt F)} {x1 : (⟨S128x64, .f32⟩ : BufTy).Contents (Elt F)} {x2 : (⟨S128, .f32⟩ : BufTy).Contents (Elt F)}
  {x3 : (⟨S21844x128, .f32⟩ : BufTy).Contents (Elt F)} {x4 : (⟨S7x128x128, .f32⟩ : BufTy).Contents (Elt F)} {x5 : (⟨S7x128, .f32⟩ : BufTy).Contents (Elt F)}

def ops10 : List (HloOp τ sig (Elt F)) :=
  [ unary main_v85 main_v86 (extractStridedSlice S4096x1x4 ![0, 0, 0] · slices_S4096x5461x4_S4096x1x4_0_0_0),
    reshape main_v86 main_v87 rfl shapeCasts_S4096x1x4_S4096x4,
    unary main_v85 main_v88 (extractStridedSlice S4096x4x4 ![0, 1, 0] · slices_S4096x5461x4_S4096x4x4_0_1_0),
    reshape main_v88 main_v89 rfl shapeCasts_S4096x4x4_S4096x16,
    unary main_v87 main_v90 (broadcastInDim S4096x4x4 ![0, 1] bcast_S4096x4_S4096x4x4_0_1),
    reshape main_v90 main_v91 rfl shapeCasts_S4096x4x4_S4096x16,
    binary main_v91 main_v89 main_v92 addf,
    unary main_v85 main_v93 (extractStridedSlice S4096x16x4 ![0, 5, 0] · slices_S4096x5461x4_S4096x16x4_0_5_0),
    reshape main_v93 main_v94 rfl shapeCasts_S4096x16x4_S4096x64,
    unary main_v92 main_v95 (broadcastInDim S4096x16x4 ![0, 1] bcast_S4096x16_S4096x16x4_0_1),
    reshape main_v95 main_v96 rfl shapeCasts_S4096x16x4_S4096x64,
    binary main_v96 main_v94 main_v97 addf ]

theorem ops10_ok : (ops10 (F := F)).Forall fun op => op.bufs ⊆ tcRefs τ sig ∧ op.fresh = ∅ := by
  simp only [ops10, List.Forall, unary_bufs_sub, binary_bufs_sub, reshape_bufs_sub, true_and]
  repeat' constructor

abbrev ops10_W : List (Ref sig .tc) := [main_v86, main_v87, main_v88, main_v89, main_v90, main_v91, main_v92, main_v93, main_v94, main_v95, main_v96, main_v97]

theorem ops10_writes : (ops10 (F := F)).Forall fun op =>
    op.writes ⊆ (ops10_W.map (Proc.devRef (τ := τ) .tc)).toFinset := by
  simp only [ops10, List.Forall, unary_writes, binary_writes, reshape_writes, Finset.singleton_subset_iff, List.mem_toFinset,
    List.mem_map_of_injective (Proc.devRef_injective _)]
  decide

theorem step10_main_v87
    (h_main_v85 : V (Proc.devRef .tc main_v85) = ReadS.val_main_v85 (F := F) x0 x1 x2 x3 x4 x5) :
    after ops10 V (Proc.devRef .tc main_v87) = ReadS.val_main_v87 (F := F) x0 x1 x2 x3 x4 x5 := by
  unfold ops10
  after_results_simp
  simp only [h_main_v85]
  rfl

theorem step10_main_v92
    (h_main_v85 : V (Proc.devRef .tc main_v85) = ReadS.val_main_v85 (F := F) x0 x1 x2 x3 x4 x5) :
    after ops10 V (Proc.devRef .tc main_v92) = ReadS.val_main_v92 (F := F) x0 x1 x2 x3 x4 x5 := by
  unfold ops10
  after_results_simp
  simp only [h_main_v85]
  rfl

theorem step10_main_v97
    (h_main_v85 : V (Proc.devRef .tc main_v85) = ReadS.val_main_v85 (F := F) x0 x1 x2 x3 x4 x5) :
    after ops10 V (Proc.devRef .tc main_v97) = ReadS.val_main_v97 (F := F) x0 x1 x2 x3 x4 x5 := by
  unfold ops10
  after_results_simp
  simp only [h_main_v85]
  rfl

def ops11 : List (HloOp τ sig (Elt F)) :=
  [ unary main_v85 main_v98 (extractStridedSlice S4096x64x4 ![0, 21, 0] · slices_S4096x5461x4_S4096x64x4_0_21_0),
    reshape main_v98 main_v99 rfl shapeCasts_S4096x64x4_S4096x256,
    unary main_v97 main_v100 (broadcastInDim S4096x64x4 ![0, 1] bcast_S4096x64_S4096x64x4_0_1),
    reshape main_v100 main_v101 rfl shapeCasts_S4096x64x4_S4096x256,
    binary main_v101 main_v99 main_v102 addf,
    unary main_v85 main_v103 (extractStridedSlice S4096x256x4 ![0, 85, 0] · slices_S4096x5461x4_S4096x256x4_0_85_0),
    reshape main_v103 main_v104 rfl shapeCasts_S4096x256x4_S4096x1024,
    unary main_v102 main_v105 (broadcastInDim S4096x256x4 ![0, 1] bcast_S4096x256_S4096x256x4_0_1),
    reshape main_v105 main_v106 rfl shapeCasts_S4096x256x4_S4096x1024,
    binary main_v106 main_v104 main_v107 addf,
    unary main_v85 main_v108 (extractStridedSlice S4096x1024x4 ![0, 341, 0] · slices_S4096x5461x4_S4096x1024x4_0_341_0),
    reshape main_v108 main_v109 rfl shapeCasts_S4096x1024x4_S4096x4096,
    unary main_v107 main_v110 (broadcastInDim S4096x1024x4 ![0, 1] bcast_S4096x1024_S4096x1024x4_0_1),
    reshape main_v110 main_v111 rfl shapeCasts_S4096x1024x4_S4096x4096,
    binary main_v111 main_v109 main_v112 addf,
    unary main_v85 main_v113 (extractStridedSlice S4096x4096x4 ![0, 1365, 0] · slices_S4096x5461x4_S4096x4096x4_0_1365_0),
    reshape main_v113 main_v114 rfl shapeCasts_S4096x4096x4_S4096x16384,
    unary main_v112 main_v115 (broadcastInDim S4096x4096x4 ![0, 1] bcast_S4096x4096_S4096x4096x4_0_1),
    reshape main_v115 main_v116 rfl shapeCasts_S4096x4096x4_S4096x16384,
    binary main_v116 main_v114 main_v117 addf ]

theorem ops11_ok : (ops11 (F := F)).Forall fun op => op.bufs ⊆ tcRefs τ sig ∧ op.fresh = ∅ := by
  simp only [ops11, List.Forall, unary_bufs_sub, binary_bufs_sub, reshape_bufs_sub, true_and]
  repeat' constructor

abbrev ops11_W : List (Ref sig .tc) := [main_v98, main_v99, main_v100, main_v101, main_v102, main_v103, main_v104, main_v105, main_v106, main_v107, main_v108, main_v109, main_v110, main_v111, main_v112, main_v113, main_v114, main_v115, main_v116, main_v117]

theorem ops11_writes : (ops11 (F := F)).Forall fun op =>
    op.writes ⊆ (ops11_W.map (Proc.devRef (τ := τ) .tc)).toFinset := by
  simp only [ops11, List.Forall, unary_writes, binary_writes, reshape_writes, Finset.singleton_subset_iff, List.mem_toFinset,
    List.mem_map_of_injective (Proc.devRef_injective _)]
  decide

theorem step11_main_v102
    (h_main_v85 : V (Proc.devRef .tc main_v85) = ReadS.val_main_v85 (F := F) x0 x1 x2 x3 x4 x5)
    (h_main_v97 : V (Proc.devRef .tc main_v97) = ReadS.val_main_v97 (F := F) x0 x1 x2 x3 x4 x5) :
    after ops11 V (Proc.devRef .tc main_v102) = ReadS.val_main_v102 (F := F) x0 x1 x2 x3 x4 x5 := by
  unfold ops11
  after_results_simp
  simp only [h_main_v85, h_main_v97]
  rfl

theorem step11_main_v107
    (h_main_v85 : V (Proc.devRef .tc main_v85) = ReadS.val_main_v85 (F := F) x0 x1 x2 x3 x4 x5)
    (h_main_v97 : V (Proc.devRef .tc main_v97) = ReadS.val_main_v97 (F := F) x0 x1 x2 x3 x4 x5) :
    after ops11 V (Proc.devRef .tc main_v107) = ReadS.val_main_v107 (F := F) x0 x1 x2 x3 x4 x5 := by
  unfold ops11
  after_results_simp
  simp only [h_main_v85, h_main_v97]
  rfl

theorem step11_main_v112
    (h_main_v85 : V (Proc.devRef .tc main_v85) = ReadS.val_main_v85 (F := F) x0 x1 x2 x3 x4 x5)
    (h_main_v97 : V (Proc.devRef .tc main_v97) = ReadS.val_main_v97 (F := F) x0 x1 x2 x3 x4 x5) :
    after ops11 V (Proc.devRef .tc main_v112) = ReadS.val_main_v112 (F := F) x0 x1 x2 x3 x4 x5 := by
  unfold ops11
  after_results_simp
  simp only [h_main_v85, h_main_v97]
  rfl

theorem step11_main_v117
    (h_main_v85 : V (Proc.devRef .tc main_v85) = ReadS.val_main_v85 (F := F) x0 x1 x2 x3 x4 x5)
    (h_main_v97 : V (Proc.devRef .tc main_v97) = ReadS.val_main_v97 (F := F) x0 x1 x2 x3 x4 x5) :
    after ops11 V (Proc.devRef .tc main_v117) = ReadS.val_main_v117 (F := F) x0 x1 x2 x3 x4 x5 := by
  unfold ops11
  after_results_simp
  simp only [h_main_v85, h_main_v97]
  rfl

end Cert.ReferenceIdeal.RunH

end
-- ==== Proof.RefRunH.lean ====
import proofs.«140810_j55551107006470_1_alg».proof.Proof.RefRunH1
import proofs.«140810_j55551107006470_1_alg».proof.Proof.RefRunH2
import proofs.«140810_j55551107006470_1_alg».proof.Proof.RefRunH3
import Idealize.ShloMosaic.Lib.Pipeline.Regions

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

def ops : List (HloOp τ sig (Elt F)) := (ops1 ++ ops2 ++ ops3 ++ ops4 ++ ops5) ++ (ops6 ++ ops7 ++ ops8 ++ ops9 ++ ops14 ++ ops12 ++ ops13 ++ ops10 ++ ops11)

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem main_part0_eq (c : Dev nD) : main_part0 (F := F) c = seq (ops1 ++ ops2 ++ ops3 ++ ops4 ++ ops5) := by
  chain_rfl

theorem main_part1_eq (c : Dev nD) : main_part1 (F := F) c = seq (ops6 ++ ops7 ++ ops8 ++ ops9 ++ ops14 ++ ops12 ++ ops13 ++ ops10 ++ ops11) := by
  chain_rfl

theorem main_eq (c : Dev nD) : main (F := F) c = seq ops := by
  unfold ops
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_ok : (ops (F := F)).Forall fun op => op.bufs ⊆ tcRefs τ sig ∧ op.fresh = ∅ := by
  simp only [ops, List.forall_append, ops1_ok, ops2_ok, ops3_ok, ops4_ok, ops5_ok, ops6_ok, ops7_ok, ops8_ok, ops9_ok, ops14_ok,
    ops12_ok, ops13_ok, ops10_ok, ops11_ok, and_self]

variable {V : Valuation τ sig (Elt F)} {R : List (Ref sig .tc)} {l : List ((r : Ref sig .tc) × r.ty.Contents (Elt F))}

/-- Contents `V` hold each listed array at its reference; `R` lists the references alone. -/
def Holds (V : Valuation τ sig (Elt F)) (R : List (Ref sig .tc)) (l : List ((r : Ref sig .tc) × r.ty.Contents (Elt F))) : Prop :=
  l.map Sigma.fst = R ∧ ∀ p ∈ l, V (Proc.devRef .tc p.1) = p.2

theorem Holds.nil : Holds V [] [] := ⟨rfl, fun _ h => nomatch h⟩

theorem Holds.cons {r : Ref sig .tc} {x : r.ty.Contents (Elt F)} (hx : V (Proc.devRef .tc r) = x) (h : Holds V R l) :
    Holds V (r :: R) (⟨r, x⟩ :: l) := ⟨congrArg (r :: ·) h.1, List.forall_mem_cons.2 ⟨hx, h.2⟩⟩

theorem Holds.at (h : Holds V R l) (i : Nat) {r : Ref sig .tc} {x : r.ty.Contents (Elt F)} (hp : l[i]? = some ⟨r, x⟩ := by rfl) :
    V (Proc.devRef .tc r) = x := h.2 ⟨r, x⟩ (List.mem_of_getElem? hp)

/-- Operations that write none of the listed references leave every listed array where it is. -/
theorem Holds.frame {W : List (Ref sig .tc)} {ops : List (HloOp τ sig (Elt F))} (h : Holds V R l)
    (hW : ops.Forall fun op => op.writes ⊆ (W.map (Proc.devRef (τ := τ) .tc)).toFinset)
    (hd : ∀ r ∈ R, r ∉ W := by decide +kernel) : Holds (after ops V) R l :=
  ⟨h.1, fun p hp => (after_of_writes_sub ops V hW (hd _ (h.1 ▸ List.mem_map_of_mem hp))).trans (h.2 p hp)⟩

/-- List by list, the arrays held so far stay and each list's results join them at their stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v87) = ReadS.val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v92) = ReadS.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v97) = ReadS.val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v102) = ReadS.val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v107) = ReadS.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v112) = ReadS.val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v117) = ReadS.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ?_)
    (run_seq scopedRefs_eq scopedSems_eq defs main (fun _ => ops) main_eq (fun _ => ops_ok.imp fun _ h => h.1) m ρ
      (fun _ => List.forall_iff_forall_mem.1 (ops_ok.imp fun _ h => h.2)))
  simp only [ops, after_app] at h
  have h0 : Holds (launchContents m c) _ [⟨main_arg0, _⟩, ⟨main_arg1, _⟩, ⟨main_arg2, _⟩, ⟨main_arg3, _⟩, ⟨main_arg4, _⟩, ⟨main_arg5, _⟩] :=
    .cons rfl (.cons rfl (.cons rfl (.cons rfl (.cons rfl (.cons rfl .nil)))))
  have h1 := Holds.cons (step1_main_v4 (h0.at 0) (h0.at 1) (h0.at 2)) (.cons (step1_main_v15 (h0.at 3) (h0.at 4) (h0.at 5)) (h0.frame ops1_writes))
  have h2 := Holds.cons (step2_main_v26 (h1.at 5) (h1.at 6) (h1.at 7)) (h1.frame ops2_writes)
  have h3 := Holds.cons (step3_main_v37 (h2.at 6) (h2.at 7) (h2.at 8)) (h2.frame ops3_writes)
  have h4 := Holds.cons (step4_main_v48 (h3.at 7) (h3.at 8) (h3.at 9)) (h3.frame ops4_writes)
  have h5 := Holds.cons (step5_main_v59 (h4.at 8) (h4.at 9) (h4.at 10)) (h4.frame ops5_writes)
  have h6 := Holds.cons (step6_main_v70 (h5.at 9) (h5.at 10) (h5.at 11)) (h5.frame ops6_writes)
  have h7 := Holds.cons (step7_main_v81 (h6.at 10) (h6.at 11) (h6.at 12)) (h6.frame ops7_writes)
  have h8 := Holds.cons (step8_main_v84 (h7.at 6) (h7.at 7) (h7.at 5) (h7.at 4) (h7.at 3) (h7.at 2) (h7.at 1) (h7.at 0)) (h7.frame ops8_writes)
  have h9 := Holds.cons (step9_main_call7_v0 (h8.at 0)) (h8.frame ops9_writes)
  have h10 := Holds.cons (step14_main_call7_v2 (h9.at 0)) (h9.frame ops14_writes)
  have h11 := Holds.cons (step12_main_call7_v5 (h10.at 2) (h10.at 0)) (.cons (step12_main_call7_v6 (h10.at 2) (h10.at 0)) (h10.frame ops12_writes))
  have h12 := Holds.cons (step13_main_v85 (h11.at 0) (h11.at 1)) (h11.frame ops13_writes)
  have h13 := Holds.cons (step10_main_v87 (h12.at 0)) (.cons (step10_main_v92 (h12.at 0)) (.cons (step10_main_v97 (h12.at 0)) (h12.frame ops10_writes)))
  have H := Holds.cons (step11_main_v102 (h13.at 3) (h13.at 2)) (.cons (step11_main_v107 (h13.at 3) (h13.at 2)) (.cons (step11_main_v112 (h13.at 3) (h13.at 2)) (.cons (step11_main_v117 (h13.at 3) (h13.at 2)) (h13.frame ops11_writes))))
  exact ⟨(h c main_v87).trans (H.at 4), (h c main_v92).trans (H.at 5), (h c main_v97).trans (H.at 6), (h c main_v102).trans (H.at 0),
    (h c main_v107).trans (H.at 1), (h c main_v112).trans (H.at 2), (h c main_v117).trans (H.at 3), (h c main_arg0).trans (H.at 21),
    (h c main_arg1).trans (H.at 22), (h c main_arg2).trans (H.at 23), (h c main_arg3).trans (H.at 24), (h c main_arg4).trans (H.at 25),
    (h c main_arg5).trans (H.at 26)⟩

end Cert.ReferenceIdeal.RunH

end
-- ==== Proof.Spec.lean ====
import Idealize.ShloMosaic.PureOps.Ideal
import Idealize.ShloMosaic.PureOps.Ideal.Laws
import Idealize.ShloMosaic.Lib.ValueIdx

noncomputable section

namespace Cert.TreeSpec

open Idealize.ShloMosaic Idealize.ShloMosaic.ValueIdx

/-- Reads at natural numbers, zero outside the extent, so that offsets and groups are arithmetic on `ℕ`. -/
def rd1 {n : ℕ} (x : (⟨1, ![n]⟩ : Shape).Idx → EReal) (a : ℕ) : EReal :=
  if h : a < n then x (ix1 ⟨a, h⟩) else 0
def rd2 {n0 n1 : ℕ} (x : (⟨2, ![n0, n1]⟩ : Shape).Idx → EReal) (a b : ℕ) : EReal :=
  if h : a < n0 ∧ b < n1 then x (ix2 ⟨a, h.1⟩ ⟨b, h.2⟩) else 0
def rd3 {n0 n1 n2 : ℕ} (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0

theorem rd1_val {n : ℕ} (x : (⟨1, ![n]⟩ : Shape).Idx → EReal) (a : Fin n) : rd1 x a.val = x (ix1 a) := by
  unfold rd1; rw [dif_pos a.isLt]
theorem rd2_val {n0 n1 : ℕ} (x : (⟨2, ![n0, n1]⟩ : Shape).Idx → EReal) (a : Fin n0) (b : Fin n1) :
    rd2 x a.val b.val = x (ix2 a b) := by
  unfold rd2; rw [dif_pos ⟨a.isLt, b.isLt⟩]
theorem rd3_val {n0 n1 n2 : ℕ} (x : (⟨3, ![n0, n1, n2]⟩ : Shape).Idx → EReal) (a : Fin n0) (b : Fin n1) (c : Fin n2) :
    rd3 x a.val b.val c.val = x (ix3 a b c) := by
  unfold rd3; rw [dif_pos ⟨a.isLt, b.isLt, c.isLt⟩]
theorem rd2_of {n0 n1 : ℕ} (x : (⟨2, ![n0, n1]⟩ : Shape).Idx → EReal) (a b : ℕ) (ha : a < n0) (hb : b < n1) :
    rd2 x a b = x (ix2 ⟨a, ha⟩ ⟨b, hb⟩) := by
  unfold rd2; rw [dif_pos ⟨ha, hb⟩]
theorem rd3_of {n0 n1 n2 : ℕ} (x : (⟨3, ![n0, n1, n2]⟩ : Shape).Idx → EReal) (a b c : ℕ) (ha : a < n0) (hb : b < n1) (hc : c < n2) :
    rd3 x a b c = x (ix3 ⟨a, ha⟩ ⟨b, hb⟩ ⟨c, hc⟩) := by
  unfold rd3; rw [dif_pos ⟨ha, hb, hc⟩]
theorem rd1_of {n : ℕ} (x : (⟨1, ![n]⟩ : Shape).Idx → EReal) (a : ℕ) (ha : a < n) : rd1 x a = x (ix1 ⟨a, ha⟩) := by
  unfold rd1; rw [dif_pos ha]

/-- Level `d` has `4^(d+1)` nodes, stored from row `(4^(d+1) - 4) / 3` of `states`. -/
def off : ℕ → ℕ
  | 0 => 0 | 1 => 4 | 2 => 20 | 3 => 84 | 4 => 340 | 5 => 1364 | _ => 5460

/-- Log-softmax of four scores: each minus the maximum, minus the logarithm of the sum of the exponentials of those. -/
def lsm (s : ℕ → EReal) (e : ℕ) : EReal :=
  (s e - (Finset.univ : Finset (Fin 4)).fold max (Ideal.ofBits .f32 0xFF800000#32) (fun e' => s e'.val))
    - Ideal.log (∑ e' : Fin 4, Ideal.exp (s e'.val
        - (Finset.univ : Finset (Fin 4)).fold max (Ideal.ofBits .f32 0xFF800000#32) (fun e'' => s e''.val)))

theorem lsm_congr {s s' : ℕ → EReal} (h : ∀ e : Fin 4, s e.val = s' e.val) (e : Fin 4) : lsm s e.val = lsm s' e.val := by
  unfold lsm
  have hf : (fun e' : Fin 4 => s e'.val) = fun e' : Fin 4 => s' e'.val := funext h
  rw [h e, hf]
  simp only [h]

section
variable (hid : (⟨2, ![4096, 64]⟩ : Shape).Idx → EReal) (wq : (⟨2, ![128, 64]⟩ : Shape).Idx → EReal)
  (bq : (⟨1, ![128]⟩ : Shape).Idx → EReal) (st : (⟨2, ![21844, 128]⟩ : Shape).Idx → EReal)
  (wk : (⟨3, ![7, 128, 128]⟩ : Shape).Idx → EReal) (bk : (⟨2, ![7, 128]⟩ : Shape).Idx → EReal)

/-- `hidden[b] · Wq[m] + bq[m]`. -/
def query (b m : ℕ) : EReal := (∑ c : Fin 64, rd2 hid b c.val * rd2 wq m c.val) + rd1 bq m

/-- `relu (states[off d + j] · Wk[d, m] + bk[d, m])`. -/
def key (d j m : ℕ) : EReal :=
  max ((∑ m' : Fin 128, rd2 st (off d + j) m'.val * rd3 wk d m m'.val) + rd2 bk d m) (Ideal.ofBits .f32 0x00000000#32)

def score (d b j : ℕ) : EReal := ∑ m : Fin 128, query hid wq bq b m.val * key st wk bk d j m.val

/-- A node's log-probability among its group of four siblings. -/
def layer (d b j : ℕ) : EReal := lsm (fun e => score hid wq bq st wk bk d b (4 * (j / 4) + e)) (j % 4)

/-- A node's result: its log-probability plus its parent's result. -/
def cur : ℕ → ℕ → ℕ → EReal
  | 0, b, j => layer hid wq bq st wk bk 0 b j
  | d + 1, b, j => cur d b (j / 4) + layer hid wq bq st wk bk (d + 1) b j

theorem cur_zero (b j : ℕ) : cur hid wq bq st wk bk 0 b j = layer hid wq bq st wk bk 0 b j := rfl
theorem cur_succ (d b j : ℕ) :
    cur hid wq bq st wk bk (d + 1) b j = cur hid wq bq st wk bk d b (j / 4) + layer hid wq bq st wk bk (d + 1) b j := rfl
end

end Cert.TreeSpec

end
-- ==== Proof.RefA.lean ====
import proofs.«140810_j55551107006470_1_alg».proof.Proof.RefStages
import proofs.«140810_j55551107006470_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefTree

open Cert.ReferenceIdeal Cert.ReferenceIdeal.Gen Cert.ReferenceIdeal.ReadS Idealize.ShloMosaic Idealize.ShloMosaic.ValueIdx Cert.TreeSpec

/-- Reading at an index is reading at its coordinates. -/
theorem rd1_at {n : ℕ} (x : (⟨1, ![n]⟩ : Shape).Idx → EReal) (i : (⟨1, ![n]⟩ : Shape).Idx) (a : ℕ) (h : (i 0).val = a) :
    x i = rd1 x a := by
  subst h; exact (congrArg x (eq_ix1 i)).trans (rd1_val x (i 0)).symm
theorem rd2_at {n0 n1 : ℕ} (x : (⟨2, ![n0, n1]⟩ : Shape).Idx → EReal) (i : (⟨2, ![n0, n1]⟩ : Shape).Idx) (a b : ℕ)
    (h0 : (i 0).val = a) (h1 : (i 1).val = b) : x i = rd2 x a b := by
  subst h0 h1; exact (congrArg x (eq_ix2 i)).trans (rd2_val x (i 0) (i 1)).symm
theorem rd3_at {n0 n1 n2 : ℕ} (x : (⟨3, ![n0, n1, n2]⟩ : Shape).Idx → EReal) (i : (⟨3, ![n0, n1, n2]⟩ : Shape).Idx)
    (a b c : ℕ) (h0 : (i 0).val = a) (h1 : (i 1).val = b) (h2 : (i 2).val = c) : x i = rd3 x a b c := by
  subst h0 h1 h2; exact (congrArg x (eq_ix3 i)).trans (rd3_val x (i 0) (i 1) (i 2)).symm

variable (x0 : (⟨S4096x64, .f32⟩ : BufTy).Contents (Elt Ideal)) (x1 : (⟨S128x64, .f32⟩ : BufTy).Contents (Elt Ideal))
  (x2 : (⟨S128, .f32⟩ : BufTy).Contents (Elt Ideal)) (x3 : (⟨S21844x128, .f32⟩ : BufTy).Contents (Elt Ideal))
  (x4 : (⟨S7x128x128, .f32⟩ : BufTy).Contents (Elt Ideal)) (x5 : (⟨S7x128, .f32⟩ : BufTy).Contents (Elt Ideal))

/-- A key from the coordinates its three operands are read at; the weight's are those of position `128 m + k` of a row-major `[128, 128]` array. -/
private theorem key_of (d j m : ℕ) (hm : m < 128) (a : Fin 128 → S21844x128.Idx) (b : Fin 128 → S7x128x128.Idx) (c : S7x128.Idx)
    (ha : ∀ k, (a k 0).val = off d + j ∧ (a k 1).val = k.val)
    (hb : ∀ k, (b k 0).val = d ∧ (b k 1).val = (m * 128 + k.val) / 128 % 128 ∧ (b k 2).val = (m * 128 + k.val) % 128)
    (hc : (c 0).val = d ∧ (c 1).val = m % 128) :
    max ((∑ k, x3 (a k) * x4 (b k)) + x5 c) (Ideal.ofBits .f32 0x00000000#32) = key x3 x4 x5 d j m := by
  rw [rd2_at x5 c d m hc.1 (hc.2.trans (Nat.mod_eq_of_lt hm))]
  refine congrArg (fun s => max (s + _) _) (Finset.sum_congr rfl fun k _ => ?_)
  have hk := k.isLt
  rw [rd2_at x3 (a k) _ _ (ha k).1 (ha k).2, rd3_at x4 (b k) d m k.val (hb k).1 (by rw [(hb k).2.1]; omega) (by rw [(hb k).2.2]; omega)]

/-- Row `pre + j` of a stack of row blocks is row `j` of the block that `pre` rows precede. -/
private theorem cat_row (xs : List ((s : Shape) × (s.Idx → EReal))) (h : Shape.Concatenates (xs.map (·.1)) S21844x128 0)
    (k n : ℕ) (y : (⟨2, ![n, 128]⟩ : Shape).Idx → EReal) (hy : xs[k]? = some ⟨_, y⟩) (pre : ℕ)
    (hpre : (((xs.take k).map (·.1)).map fun s => if h : s.rank = S21844x128.rank then s.size ((0 : Fin 2).cast h.symm) else 0).sum = pre)
    (r : Fin 21844) (j : Fin n) (m : Fin 128) (hr : r.val = pre + j.val) :
    concatenate S21844x128 0 xs h (ix2 r m) = y (ix2 j m) :=
  have ⟨hk, hy⟩ := List.getElem?_eq_some_iff.1 hy
  concatenate_apply_piece 0 xs h (ix2 r m) k hk _ y hy rfl pre hpre (ix2 j m)
    (fun b hb => match b, hb with
      | ⟨0, _⟩, hb => absurd rfl hb
      | ⟨1, _⟩, _ => rfl) hr.symm

/-- In the stacked keys level `d` begins at row `off d`. -/
theorem ref_key (d : ℕ) (r : Fin 21844) (j : ℕ) (m : Fin 128) (hd : d < 7) (hj : j < 4 ^ (d + 1)) (hr : r.val = off d + j) :
    val_main_v82 x3 x4 x5 (ix2 r m) = key x3 x4 x5 d j m.val := by
  unfold val_main_v82
  obtain rfl | rfl | rfl | rfl | rfl | rfl | rfl : d = 0 ∨ d = 1 ∨ d = 2 ∨ d = 3 ∨ d = 4 ∨ d = 5 ∨ d = 6 := by omega
  · refine (cat_row _ _ 0 _ _ rfl 0 rfl r ⟨j, hj⟩ m hr).trans ?_
    simp only [val_main_v15_apply, val_main_v14_apply, val_main_v9_apply, val_main_call0_v0_apply, val_main_call0_cst_apply,
      val_main_v13_apply, val_main_v12_apply, val_main_v11_apply, val_main_v10_apply, val_main_v5_apply, val_main_v8_apply,
      val_main_v7_apply, val_main_v6_apply]
    exact key_of x3 x4 x5 0 j m m.isLt _ _ _ (fun _ => ⟨(Nat.zero_add _).symm, rfl⟩) (fun _ => ⟨rfl, rfl, rfl⟩) ⟨rfl, rfl⟩
  · refine (cat_row _ _ 1 _ _ rfl 4 rfl r ⟨j, hj⟩ m hr).trans ?_
    simp only [val_main_v26_apply, val_main_v25_apply, val_main_v20_apply, val_main_call1_v0_apply, val_main_call1_cst_apply,
      val_main_v24_apply, val_main_v23_apply, val_main_v22_apply, val_main_v21_apply, val_main_v16_apply, val_main_v19_apply,
      val_main_v18_apply, val_main_v17_apply]
    exact key_of x3 x4 x5 1 j m m.isLt _ _ _ (fun _ => ⟨rfl, rfl⟩) (fun _ => ⟨rfl, rfl, rfl⟩) ⟨rfl, rfl⟩
  · refine (cat_row _ _ 2 _ _ rfl 20 rfl r ⟨j, hj⟩ m hr).trans ?_
    simp only [val_main_v37_apply, val_main_v36_apply, val_main_v31_apply, val_main_call2_v0_apply, val_main_call2_cst_apply,
      val_main_v35_apply, val_main_v34_apply, val_main_v33_apply, val_main_v32_apply, val_main_v27_apply, val_main_v30_apply,
      val_main_v29_apply, val_main_v28_apply]
    exact key_of x3 x4 x5 2 j m m.isLt _ _ _ (fun _ => ⟨rfl, rfl⟩) (fun _ => ⟨rfl, rfl, rfl⟩) ⟨rfl, rfl⟩
  · refine (cat_row _ _ 3 _ _ rfl 84 rfl r ⟨j, hj⟩ m hr).trans ?_
    simp only [val_main_v48_apply, val_main_v47_apply, val_main_v42_apply, val_main_call3_v0_apply, val_main_call3_cst_apply,
      val_main_v46_apply, val_main_v45_apply, val_main_v44_apply, val_main_v43_apply, val_main_v38_apply, val_main_v41_apply,
      val_main_v40_apply, val_main_v39_apply]
    exact key_of x3 x4 x5 3 j m m.isLt _ _ _ (fun _ => ⟨rfl, rfl⟩) (fun _ => ⟨rfl, rfl, rfl⟩) ⟨rfl, rfl⟩
  · refine (cat_row _ _ 4 _ _ rfl 340 rfl r ⟨j, hj⟩ m hr).trans ?_
    simp only [val_main_v59_apply, val_main_v58_apply, val_main_v53_apply, val_main_call4_v0_apply, val_main_call4_cst_apply,
      val_main_v57_apply, val_main_v56_apply, val_main_v55_apply, val_main_v54_apply, val_main_v49_apply, val_main_v52_apply,
      val_main_v51_apply, val_main_v50_apply]
    exact key_of x3 x4 x5 4 j m m.isLt _ _ _ (fun _ => ⟨rfl, rfl⟩) (fun _ => ⟨rfl, rfl, rfl⟩) ⟨rfl, rfl⟩
  · refine (cat_row _ _ 5 _ _ rfl 1364 rfl r ⟨j, hj⟩ m hr).trans ?_
    simp only [val_main_v70_apply, val_main_v69_apply, val_main_v64_apply, val_main_call5_v0_apply, val_main_call5_cst_apply,
      val_main_v68_apply, val_main_v67_apply, val_main_v66_apply, val_main_v65_apply, val_main_v60_apply, val_main_v63_apply,
      val_main_v62_apply, val_main_v61_apply]
    exact key_of x3 x4 x5 5 j m m.isLt _ _ _ (fun _ => ⟨rfl, rfl⟩) (fun _ => ⟨rfl, rfl, rfl⟩) ⟨rfl, rfl⟩
  · refine (cat_row _ _ 6 _ _ rfl 5460 rfl r ⟨j, hj⟩ m hr).trans ?_
    simp only [val_main_v81_apply, val_main_v80_apply, val_main_v75_apply, val_main_call6_v0_apply, val_main_call6_cst_apply,
      val_main_v79_apply, val_main_v78_apply, val_main_v77_apply, val_main_v76_apply, val_main_v71_apply, val_main_v74_apply,
      val_main_v73_apply, val_main_v72_apply]
    exact key_of x3 x4 x5 6 j m m.isLt _ _ _ (fun _ => ⟨rfl, rfl⟩) (fun _ => ⟨rfl, rfl, rfl⟩) ⟨rfl, rfl⟩

theorem ref_query (B : Fin 4096) (m : Fin 128) : val_main_v4 x0 x1 x2 (ix2 B m) = query x0 x1 x2 B.val m.val := by
  simp only [val_main_v4_apply, val_main_v1_apply, val_main_v3_apply, val_main_v2_apply, val_main_v0_apply]
  exact congrArg₂ (· + ·) (Finset.sum_congr rfl fun k _ => congrArg₂ (· * ·) (rd2_at x0 _ _ _ rfl rfl) (rd2_at x1 _ _ _ rfl rfl))
    (rd1_at x2 _ _ rfl)

theorem ref_score (d : ℕ) (B : Fin 4096) (r : Fin 21844) (j : ℕ) (hd : d < 7) (hj : j < 4 ^ (d + 1)) (hr : r.val = off d + j) :
    val_main_v83 x0 x1 x2 x3 x4 x5 (ix2 B r) = score x0 x1 x2 x3 x4 x5 d B.val j := by
  rw [val_main_v83_apply]
  exact Finset.sum_congr rfl fun k _ => congrArg₂ (· * ·)
    ((congrArg _ (eq_ix2 _)).trans (ref_query x0 x1 x2 B k)) ((congrArg _ (eq_ix2 _)).trans (ref_key x3 x4 x5 d r j k hd hj hr))

end Cert.ReferenceIdeal.RefTree

end
-- ==== Proof.RefB.lean ====
import proofs.«140810_j55551107006470_1_alg».proof.Proof.RefA
import Idealize.ShloMosaic.PureOps.Reduce

noncomputable section

namespace Cert.ReferenceIdeal.RefTree

open Cert.ReferenceIdeal Cert.ReferenceIdeal.Gen Cert.ReferenceIdeal.ReadS Idealize.ShloMosaic Idealize.ShloMosaic.ValueIdx Cert.TreeSpec

variable (x0 : (⟨S4096x64, .f32⟩ : BufTy).Contents (Elt Ideal)) (x1 : (⟨S128x64, .f32⟩ : BufTy).Contents (Elt Ideal))
  (x2 : (⟨S128, .f32⟩ : BufTy).Contents (Elt Ideal)) (x3 : (⟨S21844x128, .f32⟩ : BufTy).Contents (Elt Ideal))
  (x4 : (⟨S7x128x128, .f32⟩ : BufTy).Contents (Elt Ideal)) (x5 : (⟨S7x128, .f32⟩ : BufTy).Contents (Elt Ideal))

/-- Regrouping in fours sends `(B, g, k)` to score `4 g + k` of row `B`. -/
private theorem grouped_at (B : Fin 4096) (g : Fin 5461) (k : Fin 4) :
    val_main_v84 x0 x1 x2 x3 x4 x5 (ix3 B g k) = rd2 (val_main_v83 x0 x1 x2 x3 x4 x5) B.val (4 * g.val + k.val) := by
  have hB := B.isLt; have hg := g.isLt; have hk := k.isLt
  exact (val_main_v84_apply x0 x1 x2 x3 x4 x5 _).trans (rd2_at _ _ _ _
    (by show ((B.val * 5461 + g.val) * 4 + k.val) / 21844 = B.val; omega)
    (by show ((B.val * 5461 + g.val) * 4 + k.val) % 21844 = 4 * g.val + k.val; omega))

/-- The reduction along the last axis is the fold of `max` over the four scores of a group. -/
private theorem groupmax_at (B : Fin 4096) (g : Fin 5461) :
    val_main_call7_v0 x0 x1 x2 x3 x4 x5 (ix2 B g)
      = (Finset.univ : Finset (Fin 4)).fold max (Ideal.ofBits .f32 0xFF800000#32)
          (fun e => rd2 (val_main_v83 x0 x1 x2 x3 x4 x5) B.val (4 * g.val + e.val)) := by
  unfold val_main_call7_v0
  rw [Host.reduce_eq_fold_single FloatOps.maximumf _ _ reducesTo_S4096x5461x4_S4096x5461_d2 (by decide) h_S_]
  exact congrArg (fun f => Finset.fold max _ f Finset.univ)
    (funext fun k => (congrArg (val_main_v84 x0 x1 x2 x3 x4 x5) (eq_ix3 _)).trans (grouped_at x0 x1 x2 x3 x4 x5 B g ⟨k.val, k.isLt⟩))

private theorem max_neg_inf (y : EReal) : max (Ideal.ofBits .f32 0xFF800000#32) y = y := by
  simp [Ideal.ofBits, Ideal.ieee]

private theorem shifted_at (B : Fin 4096) (g : Fin 5461) (k : Fin 4) :
    val_main_call7_v5 x0 x1 x2 x3 x4 x5 (ix3 B g k)
      = rd2 (val_main_v83 x0 x1 x2 x3 x4 x5) B.val (4 * g.val + k.val) - (Finset.univ : Finset (Fin 4)).fold max (Ideal.ofBits .f32 0xFF800000#32)
          (fun e => rd2 (val_main_v83 x0 x1 x2 x3 x4 x5) B.val (4 * g.val + e.val)) := by
  rw [val_main_call7_v5_apply, val_main_call7_v4_apply, val_main_call7_v3_apply, val_main_call7_v2_apply,
    val_main_call7_v1_apply, val_main_call7_cst_0_apply, grouped_at,
    show idx_main_call7_v3 (idx_main_call7_v4 (ix3 B g k)) = ix2 B g from eq_ix2 _, groupmax_at]
  simp only [Ideal.subf_def, Ideal.maximumf_def, Ideal.ofBits_def, max_neg_inf]

/-- Each entry is the log-softmax of its group of four scores. -/
private theorem ref_logp (B : Fin 4096) (g : Fin 5461) (e : Fin 4) :
    val_main_v85 x0 x1 x2 x3 x4 x5 (ix3 B g e) = lsm (fun e' => rd2 (val_main_v83 x0 x1 x2 x3 x4 x5) B.val (4 * g.val + e')) e.val := by
  rw [val_main_v85_apply, val_main_call7_v10_apply, val_main_call7_v9_apply, val_main_call7_v8_apply,
    val_main_call7_v7_apply, val_main_call7_cst_1_apply]
  have hi : ∀ k : Fin 4, idx_main_call7_v7 (idx_main_call7_v8 (idx_main_call7_v10 (ix3 B g e))) k = ix3 B g k :=
    fun _ => eq_ix3 _
  simp only [hi, val_main_call7_v6_apply, shifted_at, Ideal.subf_def, Ideal.hostUnary_exp_def, Ideal.hostUnary_log_def,
    Ideal.ofBits_def, Ideal.ofBits_zero_f32, zero_add]
  rfl

/-- The group `g` with `4 g = off d + 4 (j / 4)` holds node `j` of level `d` and its siblings. -/
private theorem layer_at (d : ℕ) (hd : d < 7) (i : S4096x5461x4.Idx) (B j : ℕ) (hj : j < 4 ^ (d + 1))
    (h0 : (i 0).val = B) (h1 : 4 * (i 1).val = off d + 4 * (j / 4)) (h2 : (i 2).val = j % 4) :
    val_main_v85 x0 x1 x2 x3 x4 x5 i = layer x0 x1 x2 x3 x4 x5 d B j := by
  subst h0
  rw [(congrArg _ (eq_ix3 i)).trans (ref_logp x0 x1 x2 x3 x4 x5 (i 0) (i 1) (i 2)), h2]
  refine lsm_congr (fun e' => ?_) ⟨j % 4, Nat.mod_lt _ (by decide)⟩
  have hg : (i 1).val < 5461 := (i 1).isLt; have he := e'.isLt; have h4 : 4 ^ (d + 1) = 4 ^ d * 4 := pow_succ 4 d
  exact (rd2_of _ _ _ (i 0).isLt (show 4 * (i 1).val + e'.val < 21844 by omega)).trans
    (ref_score x0 x1 x2 x3 x4 x5 d (i 0) ⟨_, _⟩ (4 * (j / 4) + e'.val) hd (by omega) (by show 4 * (i 1).val + e'.val = _; omega))

theorem ref_res0 (B : Fin 4096) (j : Fin 4) : val_main_v87 x0 x1 x2 x3 x4 x5 (ix2 B j) = cur x0 x1 x2 x3 x4 x5 0 B.val j.val := by
  have hB := B.isLt; have hj := j.isLt
  rw [val_main_v87_apply, val_main_v86_apply]
  exact layer_at x0 x1 x2 x3 x4 x5 0 (by decide) _ B.val j.val hj (by show (B.val * 4 + j.val) / 4 = B.val; omega) (by show 4 * 0 = 0 + _; omega)
    (by show (B.val * 4 + j.val) % 4 = j.val % 4; omega)

/-- Level `d + 1` from level `d`, both read at the coordinates of position `n B + j` of a row-major `[4096, q, 4]` array, `n = 4 q`. -/
private theorem cur_step (d q n o : ℕ) (hd : d < 6) (hq : q = 4 ^ (d + 1)) (hn : n = 4 * q) (ho : 4 * o = off (d + 1))
    (P : (⟨2, ![4096, q]⟩ : Shape).Idx → EReal) (hP : ∀ B j, P (ix2 B j) = cur x0 x1 x2 x3 x4 x5 d B.val j.val)
    (B : Fin 4096) (j : Fin n) (i : (⟨2, ![4096, q]⟩ : Shape).Idx) (i' : S4096x5461x4.Idx)
    (h0 : (i 0).val = (B.val * n + j.val) / n) (h1 : (i 1).val = (B.val * n + j.val) / 4 % q)
    (h0' : (i' 0).val = (B.val * n + j.val) / n) (h1' : (i' 1).val = o + (B.val * n + j.val) / 4 % q)
    (h2' : (i' 2).val = (B.val * n + j.val) % 4) :
    P i + val_main_v85 x0 x1 x2 x3 x4 x5 i' = cur x0 x1 x2 x3 x4 x5 (d + 1) B.val j.val := by
  subst hn
  have hj := j.isLt
  have e0 : (B.val * (4 * q) + j.val) / (4 * q) = B.val := by
    rw [Nat.mul_comm, Nat.mul_add_div (by omega), Nat.div_eq_of_lt hj, Nat.add_zero]
  have e1 : (B.val * (4 * q) + j.val) / 4 % q = j.val / 4 := by
    rw [Nat.mul_comm, Nat.mul_assoc, Nat.mul_add_div (by decide), Nat.mul_add_mod, Nat.mod_eq_of_lt (by omega)]
  have e2 : (B.val * (4 * q) + j.val) % 4 = j.val % 4 := by rw [Nat.mul_comm, Nat.mul_assoc, Nat.mul_add_mod]
  exact (congrArg₂ (· + ·)
    ((congrArg P (eq_ix2 i)).trans ((hP (i 0) (i 1)).trans (congrArg₂ (cur x0 x1 x2 x3 x4 x5 d) (h0.trans e0) (h1.trans e1))))
    (layer_at x0 x1 x2 x3 x4 x5 (d + 1) (by omega) i' B.val j.val (by rw [pow_succ, ← hq]; omega) (h0'.trans e0)
      (by omega) (h2'.trans e2))).trans (cur_succ x0 x1 x2 x3 x4 x5 d B.val j.val).symm

theorem ref_res1 (B : Fin 4096) (j : Fin 16) : val_main_v92 x0 x1 x2 x3 x4 x5 (ix2 B j) = cur x0 x1 x2 x3 x4 x5 1 B.val j.val := by
  rw [val_main_v92_apply, val_main_v91_apply, val_main_v90_apply, val_main_v89_apply, val_main_v88_apply]
  exact cur_step x0 x1 x2 x3 x4 x5 0 4 16 1 (by decide) rfl rfl rfl _ (ref_res0 x0 x1 x2 x3 x4 x5) B j _ _ rfl rfl rfl rfl rfl

theorem ref_res2 (B : Fin 4096) (j : Fin 64) : val_main_v97 x0 x1 x2 x3 x4 x5 (ix2 B j) = cur x0 x1 x2 x3 x4 x5 2 B.val j.val := by
  rw [val_main_v97_apply, val_main_v96_apply, val_main_v95_apply, val_main_v94_apply, val_main_v93_apply]
  exact cur_step x0 x1 x2 x3 x4 x5 1 16 64 5 (by decide) rfl rfl rfl _ (ref_res1 x0 x1 x2 x3 x4 x5) B j _ _ rfl rfl rfl rfl rfl

theorem ref_res3 (B : Fin 4096) (j : Fin 256) : val_main_v102 x0 x1 x2 x3 x4 x5 (ix2 B j) = cur x0 x1 x2 x3 x4 x5 3 B.val j.val := by
  rw [val_main_v102_apply, val_main_v101_apply, val_main_v100_apply, val_main_v99_apply, val_main_v98_apply]
  exact cur_step x0 x1 x2 x3 x4 x5 2 64 256 21 (by decide) rfl rfl rfl _ (ref_res2 x0 x1 x2 x3 x4 x5) B j _ _ rfl rfl rfl rfl rfl

theorem ref_res4 (B : Fin 4096) (j : Fin 1024) : val_main_v107 x0 x1 x2 x3 x4 x5 (ix2 B j) = cur x0 x1 x2 x3 x4 x5 4 B.val j.val := by
  rw [val_main_v107_apply, val_main_v106_apply, val_main_v105_apply, val_main_v104_apply, val_main_v103_apply]
  exact cur_step x0 x1 x2 x3 x4 x5 3 256 1024 85 (by decide) rfl rfl rfl _ (ref_res3 x0 x1 x2 x3 x4 x5) B j _ _ rfl rfl rfl rfl rfl

theorem ref_res5 (B : Fin 4096) (j : Fin 4096) : val_main_v112 x0 x1 x2 x3 x4 x5 (ix2 B j) = cur x0 x1 x2 x3 x4 x5 5 B.val j.val := by
  rw [val_main_v112_apply, val_main_v111_apply, val_main_v110_apply, val_main_v109_apply, val_main_v108_apply]
  exact cur_step x0 x1 x2 x3 x4 x5 4 1024 4096 341 (by decide) rfl rfl rfl _ (ref_res4 x0 x1 x2 x3 x4 x5) B j _ _ rfl rfl rfl rfl rfl

theorem ref_res6 (B : Fin 4096) (j : Fin 16384) : val_main_v117 x0 x1 x2 x3 x4 x5 (ix2 B j) = cur x0 x1 x2 x3 x4 x5 6 B.val j.val := by
  rw [val_main_v117_apply, val_main_v116_apply, val_main_v115_apply, val_main_v114_apply, val_main_v113_apply]
  exact cur_step x0 x1 x2 x3 x4 x5 5 4096 16384 1365 (by decide) rfl rfl rfl _ (ref_res5 x0 x1 x2 x3 x4 x5) B j _ _ rfl rfl rfl rfl rfl

end Cert.ReferenceIdeal.RefTree

end
-- ==== Proof.KQ.lean ====
import proofs.«140810_j55551107006470_1_alg».proof.Proof.FrameKI
import proofs.«140810_j55551107006470_1_alg».proof.Proof.Spec

noncomputable section

namespace Cert.KernelIdeal.Tree

open Cert.KernelIdeal Cert.KernelIdeal.Gen Cert.KernelIdeal.GenP Idealize.ShloMosaic

def Qv {F : FTy → Type} [FloatOps F] (x0 : Vec F S128x64 .f32) (x1 : Vec F S64x128 .f32) (x2 : Vec F S1x128 .f32) : FVec F S128x128 .bf16 :=
  k1_pay3 (View.ld x0 r1_0) (View.ld x1 r1_1) (View.ld x2 r1_2)

end Cert.KernelIdeal.Tree

end
-- ==== Proof.KKeys.lean ====
import proofs.«140810_j55551107006470_1_alg».proof.Proof.Gen.KernelIdeal.Skeleton
import proofs.«140810_j55551107006470_1_alg».proof.Proof.Spec
import Idealize.ShloMosaic.Lib.StackMember
import Idealize.ShloMosaic.Lib.ValueLayout

noncomputable section

namespace Cert.KernelIdeal.Tree

open Cert.KernelIdeal Cert.KernelIdeal.Gen Idealize.ShloMosaic Idealize.ShloMosaic.ValueIdx Cert.TreeSpec

def kform {n : ℕ} (w : Vec Ideal S1x128x128 .f32) (s : (⟨2, ![128, n]⟩ : Shape).Idx → EReal) (bc : Vec Ideal S1x128x1 .f32)
    (m : Fin 128) (j : Fin n) : EReal :=
  max ((∑ m' : Fin 128, w (ix3 0 m m') * s (ix2 m' j)) + bc (ix3 0 m 0)) (Ideal.ofBits .f32 0x00000000#32)

/-- An M×K by K×N product into a zero accumulator, read at (a, b): the sum over the contracted axis. -/
theorem mm_apply {M K N : ℕ} (D : DotDims ⟨2, ![M, K]⟩ ⟨2, ![K, N]⟩ ⟨2, ![M, N]⟩) (hD : D = DotDims.plain M K N)
    (A : FVec Ideal ⟨2, ![M, K]⟩ .bf16) (B : FVec Ideal ⟨2, ![K, N]⟩ .bf16) (a : Fin M) (b : Fin N) :
    matmul D none A B (constant ⟨2, ![M, N]⟩ .f32 0x00000000#32) (ix2 a b) = ∑ c : Fin K, A (ix2 a c) * B (ix2 c b) := by
  subst hD
  exact (congrFun (matmul_zero_eq_dotGeneral _ none A B) _).trans (StackMember.dotGeneral_plain_apply none A B a b)

/-- At any width n, max (W · S + b) 0 read at (m, j); the bias column is read at its row. -/
theorem keyPay {n : ℕ} (D : DotDims S128x128 ⟨2, ![128, n]⟩ ⟨2, ![128, n]⟩) (hD : D = DotDims.plain 128 128 n)
    (h0 : (⟨2, ![128, n]⟩ : Shape).ShapeCasts ⟨2, ![128, n]⟩) (h1 : S1x128x128.ShapeCasts S128x128)
    (h2 : S1x128x1.ShapeCasts S128x1) (h3 : S128x1.Broadcasts ⟨2, ![128, n]⟩)
    (v0 : Vec Ideal ⟨2, ![128, n]⟩ .f32) (w : Vec Ideal S1x128x128 .f32) (bc : Vec Ideal S1x128x1 .f32) (m : Fin 128) (j : Fin n) :
    (truncf .bf16 (maximumf (addf (matmul D none (truncf .bf16 (shapeCast S128x128 w h1) bitsLt_bf16_f32)
        (truncf .bf16 (shapeCast _ v0 h0) bitsLt_bf16_f32) (constant _ .f32 0x00000000#32))
      (broadcastTo _ (shapeCast S128x1 bc h2) h3)) (broadcast _ (Scalar.ofBits .f32 0x00000000#32))) bitsLt_bf16_f32
      : FVec Ideal ⟨2, ![128, n]⟩ .bf16) (ix2 m j) = kform w v0 bc m j := by
  unfold kform
  simp only [truncf_apply, maximumf_apply, addf_apply, broadcast_apply]
  rw [mm_apply D hD, broadcastTo_apply _ h3 (ix2 m j) (ix2 m (0 : Fin 1)) (fun ax => by
    match ax with
    | ⟨0, _⟩ => rfl
    | ⟨1, _⟩ => rfl), shapeCast_self]
  simp only [truncf_apply, shapeCast_1ab_ab_apply]
  rfl

theorem queryPay (h : Vec Ideal S128x64 .f32) (wqT : Vec Ideal S64x128 .f32) (bqRow : Vec Ideal S1x128 .f32) (b m : Fin 128) :
    k1_pay3 h wqT bqRow (ix2 b m) = (∑ c : Fin 64, h (ix2 b c) * wqT (ix2 c m)) + bqRow (ix2 0 m) := by
  unfold k1_pay3
  simp only [truncf_apply, addf_apply]
  rw [mm_apply dot_S128x64_S64x128_S128x128_1_0_0_1_n_n rfl, broadcastTo_1b_ab_apply, shapeCast_self, shapeCast_self]
  simp only [truncf_apply]

end Cert.KernelIdeal.Tree

end
-- ==== Proof.KKeyArr.lean ====
import proofs.«140810_j55551107006470_1_alg».proof.Proof.FrameKI
import proofs.«140810_j55551107006470_1_alg».proof.Proof.KKeys
import Idealize.ShloMosaic.Lib.StableHlo.Run

noncomputable section

namespace Cert.KernelIdeal.Tree

open Cert.KernelIdeal Cert.KernelIdeal.Gen Cert.KernelIdeal.GenP Idealize.ShloMosaic Idealize.ShloMosaic.TcCoe Idealize.ShloMosaic.ValueIdx Idealize.SL.Sem Cert.TreeSpec
open Idealize.ShloMosaic.Pipeline (Dat Cfg Window)

variable (m : (ℓ : Loc nD τ sig) → Buf (Elt Ideal) ℓ) (ρ : Dev nD → PrngReg)

private abbrev t0 : Fin cfg0.N := ⟨0, by decide⟩

private theorem zero2 : (![0, 0] : Fin 2 → Nat) = fun _ => 0 := funext fun a => by fin_cases a <;> rfl

private theorem statesT_apply (c : Dev nD) (a : Fin 128) (r : Fin 21844) :
    (V1 m ρ c main_v0 : S128x21844.Idx → EReal) (ix2 a r) = (m ((c : Thread nD τ).loc main_arg3) : S21844x128.Idx → EReal) (ix2 r a) := by
  have h : (V1 m ρ c main_v0 : S128x21844.Idx → EReal)
      = transpose S128x21844 [1, 0] (m ((c : Thread nD τ).loc main_arg3)) transposes_S21844x128_S128x21844_1_0 := by
    dsimp only [V1, W1, W0, hostOps0]
    after_results
  rw [h]
  exact transpose_ix2_apply _ _ a r

private theorem weights_eq (c : Dev nD) : (V1 m ρ c main_arg4 : S7x128x128.Idx → EReal) = m ((c : Thread nD τ).loc main_arg4) := by
  dsimp only [V1, W1, W0, hostOps0]
  after_results

private theorem biasCols_apply (c : Dev nD) (d : Fin 7) (a : Fin 128) :
    (V1 m ρ c main_v1 : S7x128x1.Idx → EReal) (ix3 d a (0 : Fin 1)) = (m ((c : Thread nD τ).loc main_arg5) : S7x128.Idx → EReal) (ix2 d a) := by
  have h : (V1 m ρ c main_v1 : S7x128x1.Idx → EReal)
      = broadcastInDim S7x128x1 ![0, 1] bcast_S7x128_S7x128x1_0_1 (m ((c : Thread nD τ).loc main_arg5)) := by
    dsimp only [V1, W1, W0, hostOps0]
    after_results
  rw [h]
  exact broadcastInDim_apply _ bcast_S7x128_S7x128x1_0_1 _ _ (ix2 d a) (fun ax => match ax with
    | ⟨0, _⟩ => rfl
    | ⟨1, _⟩ => rfl)

/-- Block index zero on every axis: an element of the block keeps its coordinates in the array. -/
private theorem blk0_0 (V : (c : Dev nD) → (b : Ref sig .tc) → Buf (Elt Ideal) ((c : Thread nD τ).loc b)) (c : Dev nD) (t : Fin cfg0.N) :
    (iblk0 V c 0 t : Vec Ideal S128x21844 .f32) = V c (Pipeline.arrRef spec0 0) :=
  funext fun j => congrArg (V c (Pipeline.arrRef spec0 0)) (funext fun a => Fin.ext
    (win0_0.rect_emb_val_of_index_zero t a (match a with | ⟨0, _⟩ => rfl | ⟨1, _⟩ => rfl) j))

private theorem blk0_1 (V : (c : Dev nD) → (b : Ref sig .tc) → Buf (Elt Ideal) ((c : Thread nD τ).loc b)) (c : Dev nD) (t : Fin cfg0.N) :
    (iblk0 V c 1 t : Vec Ideal S7x128x128 .f32) = V c (Pipeline.arrRef spec0 1) :=
  funext fun j => congrArg (V c (Pipeline.arrRef spec0 1)) (funext fun a => Fin.ext
    (win0_1.rect_emb_val_of_index_zero t a (match a with | ⟨0, _⟩ => rfl | ⟨1, _⟩ => rfl | ⟨2, _⟩ => rfl) j))

private theorem blk0_2 (V : (c : Dev nD) → (b : Ref sig .tc) → Buf (Elt Ideal) ((c : Thread nD τ).loc b)) (c : Dev nD) (t : Fin cfg0.N) :
    (iblk0 V c 2 t : Vec Ideal S7x128x1 .f32) = V c (Pipeline.arrRef spec0 2) :=
  funext fun j => congrArg (V c (Pipeline.arrRef spec0 2)) (funext fun a => Fin.ext
    (win0_2.rect_emb_val_of_index_zero t a (match a with | ⟨0, _⟩ => rfl | ⟨1, _⟩ => rfl | ⟨2, _⟩ => rfl) j))

/-- Entry by entry the key form is the specification's key; the product's factors commute. -/
private theorem kform_eq_key (st : (⟨2, ![21844, 128]⟩ : Shape).Idx → EReal) (wk : (⟨3, ![7, 128, 128]⟩ : Shape).Idx → EReal)
    (bk : (⟨2, ![7, 128]⟩ : Shape).Idx → EReal) {n : ℕ} (d : ℕ) (hd : d < 7) (hn : off d + n ≤ 21844)
    (w : Vec Ideal S1x128x128 .f32) (s : (⟨2, ![128, n]⟩ : Shape).Idx → EReal) (bc : Vec Ideal S1x128x1 .f32)
    (hw : ∀ a b : Fin 128, w (ix3 0 a b) = wk (ix3 ⟨d, hd⟩ a b))
    (hs : ∀ (a : Fin 128) (j : Fin n), s (ix2 a j) = st (ix2 ⟨off d + j.val, by have := j.isLt; omega⟩ a))
    (hb : ∀ a : Fin 128, bc (ix3 0 a 0) = bk (ix2 ⟨d, hd⟩ a))
    (mm : Fin 128) (jj : Fin n) : kform w s bc mm jj = key st wk bk d jj.val mm.val := by
  unfold kform key
  have hsum : (∑ m' : Fin 128, w (ix3 0 mm m') * s (ix2 m' jj)) = ∑ m' : Fin 128, rd2 st (off d + jj.val) m'.val * rd3 wk d mm.val m'.val :=
    Finset.sum_congr rfl fun m' _ => by
      rw [hw, hs, rd3_of wk d mm.val m'.val hd mm.isLt m'.isLt, rd2_of st _ _ (by have := jj.isLt; omega) m'.isLt, mul_comm]
  rw [hsum, hb, rd2_of bk d mm.val hd mm.isLt]

/-- Level d's three rectangles start at row off d of the states, slab d of the weights and row d of the biases. -/
private theorem level_key (c : Dev nD) {n : ℕ} (d : ℕ) (hd : d < 7) (hn : off d + n ≤ 21844)
    (iA : ∀ a, (![0, off d] : Fin 2 → ℕ) a + (![128, n] : Fin 2 → ℕ) a ≤ S128x21844.size a)
    (iB : ∀ a, (![d, 0, 0] : Fin 3 → ℕ) a + (![1, 128, 128] : Fin 3 → ℕ) a ≤ S7x128x128.size a)
    (iC : ∀ a, (![d, 0, 0] : Fin 3 → ℕ) a + (![1, 128, 1] : Fin 3 → ℕ) a ≤ S7x128x1.size a)
    (iO : ∀ a, (![0, 0] : Fin 2 → ℕ) a + (⟨2, ![128, n]⟩ : Shape).size a ≤ (⟨2, ![128, n]⟩ : Shape).size a) (P : FVec Ideal ⟨2, ![128, n]⟩ .bf16)
    (hP : ∀ a j, P (ix2 a j) = kform (View.ld (V1 m ρ c main_arg4 : S7x128x128.Idx → EReal) (Rect.unit (s := S7x128x128) ![d, 0, 0] ![1, 128, 128] iB))
        (View.ld (V1 m ρ c main_v0 : S128x21844.Idx → EReal) (Rect.unit (s := S128x21844) ![0, off d] ![128, n] iA))
        (View.ld (V1 m ρ c main_v1 : S7x128x1.Idx → EReal) (Rect.unit (s := S7x128x1) ![d, 0, 0] ![1, 128, 1] iC)) a j) (mm : Fin 128) (jj : Fin n) :
    View.canon [(⟨Rect.unit ![0, 0] _ iO, P⟩ : View.Piece (Elt Ideal) ⟨2, ![128, n]⟩ .bf16)] (ix2 mm jj)
      = key (m ((c : Thread nD τ).loc main_arg3)) (m ((c : Thread nD τ).loc main_arg4)) (m ((c : Thread nD τ).loc main_arg5)) d jj.val mm.val := by
  rw [View.canon_unit_zero zero2, hP]
  exact kform_eq_key _ _ _ d hd hn _ _ _
    (fun a b => (congrArg (V1 m ρ c main_arg4 : S7x128x128.Idx → EReal) (funext fun ax => Fin.ext (by
      match ax with
      | ⟨0, _⟩ => show d + 1 * 0 = d; omega
      | ⟨1, _⟩ => show 0 + 1 * a.val = a.val; omega
      | ⟨2, _⟩ => show 0 + 1 * b.val = b.val; omega))).trans (congrFun (weights_eq m ρ c) (ix3 ⟨d, hd⟩ a b)))
    (fun a j => (congrArg (V1 m ρ c main_v0 : S128x21844.Idx → EReal) (funext fun ax => Fin.ext (by
      match ax with
      | ⟨0, _⟩ => show 0 + 1 * a.val = a.val; omega
      | ⟨1, _⟩ => show off d + 1 * j.val = off d + j.val; omega))).trans (statesT_apply m ρ c a ⟨off d + j.val, by have := j.isLt; omega⟩))
    (fun a => (congrArg (V1 m ρ c main_v1 : S7x128x1.Idx → EReal) (funext fun ax => Fin.ext (by
      match ax with
      | ⟨0, _⟩ => show d + 1 * 0 = d; omega
      | ⟨1, _⟩ => show 0 + 1 * a.val = a.val; omega
      | ⟨2, _⟩ => show 0 + 1 * 0 = 0; omega))).trans (biasCols_apply m ρ c ⟨d, hd⟩ a)) mm jj

theorem keyArr0 (c : Dev nD) (mm : Fin 128) (jj : Fin 4) :
    (dat0 (V1 m ρ) c).arrAt 3 cfg0.N (ix2 mm jj) = key (m ((c : Thread nD τ).loc main_arg3)) (m ((c : Thread nD τ).loc main_arg4)) (m ((c : Thread nD τ).loc main_arg5)) 0 jj.val mm.val := by
  have e (t : Fin cfg0.N) (j : S128x4.Idx) : ((cfg0.win 3).blk t).view.emb j = j := funext fun a => Fin.ext
    (win0_3.rect_emb_val_of_index_zero t a (match a with | ⟨0, _⟩ => rfl | ⟨1, _⟩ => rfl) j)
  have wb (t : Fin cfg0.N) (X : S128x4.Idx → Elt Ideal .bf16) :
      (cfg0.win 3).cut (grid0.coords t) X = ((cfg0.win 3).blk t).view.read (Elt Ideal) X := funext fun j => congrArg X (e t j).symm
  rw [(dat0 (V1 m ρ) c).arrAt_eq_of_cover 3 (out0_3 (V1 m ρ c main_v0) (V1 m ρ c main_arg4) (V1 m ρ c main_v1))
    (fun t _ => by rw [Dat.flushed, after0_3, blk0_0, blk0_1, blk0_2]; exact wb t _)
    (fun i => ⟨t0, flush0_3 _, e t0 i ▸ View.emb_mem_set _ i⟩)]
  exact level_key m ρ c 0 (by decide) (by decide) _ _ _ _ _ (keyPay _ rfl _ _ _ _ _ _ _) mm jj

theorem keyArr1 (c : Dev nD) (mm : Fin 128) (jj : Fin 16) :
    (dat0 (V1 m ρ) c).arrAt 4 cfg0.N (ix2 mm jj) = key (m ((c : Thread nD τ).loc main_arg3)) (m ((c : Thread nD τ).loc main_arg4)) (m ((c : Thread nD τ).loc main_arg5)) 1 jj.val mm.val := by
  have e (t : Fin cfg0.N) (j : S128x16.Idx) : ((cfg0.win 4).blk t).view.emb j = j := funext fun a => Fin.ext
    (win0_4.rect_emb_val_of_index_zero t a (match a with | ⟨0, _⟩ => rfl | ⟨1, _⟩ => rfl) j)
  have wb (t : Fin cfg0.N) (X : S128x16.Idx → Elt Ideal .bf16) :
      (cfg0.win 4).cut (grid0.coords t) X = ((cfg0.win 4).blk t).view.read (Elt Ideal) X := funext fun j => congrArg X (e t j).symm
  rw [(dat0 (V1 m ρ) c).arrAt_eq_of_cover 4 (out0_4 (V1 m ρ c main_v0) (V1 m ρ c main_arg4) (V1 m ρ c main_v1))
    (fun t _ => by rw [Dat.flushed, after0_4, blk0_0, blk0_1, blk0_2]; exact wb t _)
    (fun i => ⟨t0, flush0_4 _, e t0 i ▸ View.emb_mem_set _ i⟩)]
  exact level_key m ρ c 1 (by decide) (by decide) _ _ _ _ _ (keyPay _ rfl _ _ _ _ _ _ _) mm jj

theorem keyArr2 (c : Dev nD) (mm : Fin 128) (jj : Fin 64) :
    (dat0 (V1 m ρ) c).arrAt 5 cfg0.N (ix2 mm jj) = key (m ((c : Thread nD τ).loc main_arg3)) (m ((c : Thread nD τ).loc main_arg4)) (m ((c : Thread nD τ).loc main_arg5)) 2 jj.val mm.val := by
  have e (t : Fin cfg0.N) (j : S128x64.Idx) : ((cfg0.win 5).blk t).view.emb j = j := funext fun a => Fin.ext
    (win0_5.rect_emb_val_of_index_zero t a (match a with | ⟨0, _⟩ => rfl | ⟨1, _⟩ => rfl) j)
  have wb (t : Fin cfg0.N) (X : S128x64.Idx → Elt Ideal .bf16) :
      (cfg0.win 5).cut (grid0.coords t) X = ((cfg0.win 5).blk t).view.read (Elt Ideal) X := funext fun j => congrArg X (e t j).symm
  rw [(dat0 (V1 m ρ) c).arrAt_eq_of_cover 5 (out0_5 (V1 m ρ c main_v0) (V1 m ρ c main_arg4) (V1 m ρ c main_v1))
    (fun t _ => by rw [Dat.flushed, after0_5, blk0_0, blk0_1, blk0_2]; exact wb t _)
    (fun i => ⟨t0, flush0_5 _, e t0 i ▸ View.emb_mem_set _ i⟩)]
  exact level_key m ρ c 2 (by decide) (by decide) _ _ _ _ _ (keyPay _ rfl _ _ _ _ _ _ _) mm jj

theorem keyArr3 (c : Dev nD) (mm : Fin 128) (jj : Fin 256) :
    (dat0 (V1 m ρ) c).arrAt 6 cfg0.N (ix2 mm jj) = key (m ((c : Thread nD τ).loc main_arg3)) (m ((c : Thread nD τ).loc main_arg4)) (m ((c : Thread nD τ).loc main_arg5)) 3 jj.val mm.val := by
  have e (t : Fin cfg0.N) (j : S128x256.Idx) : ((cfg0.win 6).blk t).view.emb j = j := funext fun a => Fin.ext
    (win0_6.rect_emb_val_of_index_zero t a (match a with | ⟨0, _⟩ => rfl | ⟨1, _⟩ => rfl) j)
  have wb (t : Fin cfg0.N) (X : S128x256.Idx → Elt Ideal .bf16) :
      (cfg0.win 6).cut (grid0.coords t) X = ((cfg0.win 6).blk t).view.read (Elt Ideal) X := funext fun j => congrArg X (e t j).symm
  rw [(dat0 (V1 m ρ) c).arrAt_eq_of_cover 6 (out0_6 (V1 m ρ c main_v0) (V1 m ρ c main_arg4) (V1 m ρ c main_v1))
    (fun t _ => by rw [Dat.flushed, after0_6, blk0_0, blk0_1, blk0_2]; exact wb t _)
    (fun i => ⟨t0, flush0_6 _, e t0 i ▸ View.emb_mem_set _ i⟩)]
  exact level_key m ρ c 3 (by decide) (by decide) _ _ _ _ _ (keyPay _ rfl _ _ _ _ _ _ _) mm jj

theorem keyArr4 (c : Dev nD) (mm : Fin 128) (jj : Fin 1024) :
    (dat0 (V1 m ρ) c).arrAt 7 cfg0.N (ix2 mm jj) = key (m ((c : Thread nD τ).loc main_arg3)) (m ((c : Thread nD τ).loc main_arg4)) (m ((c : Thread nD τ).loc main_arg5)) 4 jj.val mm.val := by
  have e (t : Fin cfg0.N) (j : S128x1024.Idx) : ((cfg0.win 7).blk t).view.emb j = j := funext fun a => Fin.ext
    (win0_7.rect_emb_val_of_index_zero t a (match a with | ⟨0, _⟩ => rfl | ⟨1, _⟩ => rfl) j)
  have wb (t : Fin cfg0.N) (X : S128x1024.Idx → Elt Ideal .bf16) :
      (cfg0.win 7).cut (grid0.coords t) X = ((cfg0.win 7).blk t).view.read (Elt Ideal) X := funext fun j => congrArg X (e t j).symm
  rw [(dat0 (V1 m ρ) c).arrAt_eq_of_cover 7 (out0_7 (V1 m ρ c main_v0) (V1 m ρ c main_arg4) (V1 m ρ c main_v1))
    (fun t _ => by rw [Dat.flushed, after0_7, blk0_0, blk0_1, blk0_2]; exact wb t _)
    (fun i => ⟨t0, flush0_7 _, e t0 i ▸ View.emb_mem_set _ i⟩)]
  exact level_key m ρ c 4 (by decide) (by decide) _ _ _ _ _ (keyPay _ rfl _ _ _ _ _ _ _) mm jj

theorem keyArr5 (c : Dev nD) (mm : Fin 128) (jj : Fin 4096) :
    (dat0 (V1 m ρ) c).arrAt 8 cfg0.N (ix2 mm jj) = key (m ((c : Thread nD τ).loc main_arg3)) (m ((c : Thread nD τ).loc main_arg4)) (m ((c : Thread nD τ).loc main_arg5)) 5 jj.val mm.val := by
  have e (t : Fin cfg0.N) (j : S128x4096.Idx) : ((cfg0.win 8).blk t).view.emb j = j := funext fun a => Fin.ext
    (win0_8.rect_emb_val_of_index_zero t a (match a with | ⟨0, _⟩ => rfl | ⟨1, _⟩ => rfl) j)
  have wb (t : Fin cfg0.N) (X : S128x4096.Idx → Elt Ideal .bf16) :
      (cfg0.win 8).cut (grid0.coords t) X = ((cfg0.win 8).blk t).view.read (Elt Ideal) X := funext fun j => congrArg X (e t j).symm
  rw [(dat0 (V1 m ρ) c).arrAt_eq_of_cover 8 (out0_8 (V1 m ρ c main_v0) (V1 m ρ c main_arg4) (V1 m ρ c main_v1))
    (fun t _ => by rw [Dat.flushed, after0_8, blk0_0, blk0_1, blk0_2]; exact wb t _)
    (fun i => ⟨t0, flush0_8 _, e t0 i ▸ View.emb_mem_set _ i⟩)]
  exact level_key m ρ c 5 (by decide) (by decide) _ _ _ _ _ (keyPay _ rfl _ _ _ _ _ _ _) mm jj

theorem keyArr6 (c : Dev nD) (mm : Fin 128) (jj : Fin 16384) :
    (dat0 (V1 m ρ) c).arrAt 9 cfg0.N (ix2 mm jj) = key (m ((c : Thread nD τ).loc main_arg3)) (m ((c : Thread nD τ).loc main_arg4)) (m ((c : Thread nD τ).loc main_arg5)) 6 jj.val mm.val := by
  have e (t : Fin cfg0.N) (j : S128x16384.Idx) : ((cfg0.win 9).blk t).view.emb j = j := funext fun a => Fin.ext
    (win0_9.rect_emb_val_of_index_zero t a (match a with | ⟨0, _⟩ => rfl | ⟨1, _⟩ => rfl) j)
  have wb (t : Fin cfg0.N) (X : S128x16384.Idx → Elt Ideal .bf16) :
      (cfg0.win 9).cut (grid0.coords t) X = ((cfg0.win 9).blk t).view.read (Elt Ideal) X := funext fun j => congrArg X (e t j).symm
  rw [(dat0 (V1 m ρ) c).arrAt_eq_of_cover 9 (out0_9 (V1 m ρ c main_v0) (V1 m ρ c main_arg4) (V1 m ρ c main_v1))
    (fun t _ => by rw [Dat.flushed, after0_9, blk0_0, blk0_1, blk0_2]; exact wb t _)
    (fun i => ⟨t0, flush0_9 _, e t0 i ▸ View.emb_mem_set _ i⟩)]
  exact level_key m ρ c 6 (by decide) (by decide) _ _ _ _ _ (keyPay _ rfl _ _ _ _ _ _ _) mm jj

end Cert.KernelIdeal.Tree

end
-- ==== Proof.KLayer.lean ====
import proofs.«140810_j55551107006470_1_alg».proof.Proof.Gen.KernelIdeal.Skeleton
import proofs.«140810_j55551107006470_1_alg».proof.Proof.Spec
import proofs.«140810_j55551107006470_1_alg».proof.Proof.KKeys
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tree

open Cert.KernelIdeal Cert.KernelIdeal.Gen Idealize.ShloMosaic Idealize.ShloMosaic.ValueIdx Cert.TreeSpec

variable (n : ℕ)

/-- A chunk of `4 n` nodes in `n` groups of four: flat, grouped, one entry a group, and that with a unit axis. -/
abbrev Sf : Shape := ⟨2, ![128, 4 * n]⟩
abbrev Sg : Shape := ⟨3, ![128, n, 4]⟩
abbrev Sr : Shape := ⟨2, ![128, n]⟩
abbrev Su : Shape := ⟨3, ![128, n, 1]⟩

theorem fg : (Sf n).ShapeCasts (Sg n) := by
  show ∏ a, ![128, n, 4] a = ∏ a, ![128, 4 * n] a
  simp [Fin.prod_univ_succ]; ring
theorem ru : (Sr n).ShapeCasts (Su n) := by
  show ∏ a, ![128, n, 1] a = ∏ a, ![128, n] a
  simp [Fin.prod_univ_succ]
theorem red : (Sg n).Reduces [2] (Sr n) := ⟨rfl, Nat.two_pos, fun b => by fin_cases b <;> rfl⟩
theorem bc : (Su n).Broadcasts (Sg n) :=
  ⟨le_refl _, fun a => by fin_cases a; exacts [.inr fun _ => rfl, .inr fun _ => rfl, .inl rfl]⟩

section Pieces
variable {F : FTy → Type} [FloatOps F]

def sc (q : FVec F S128x128 .bf16) (k : Vec F (Sf n) .bf16) : FVec F (Sg n) .f32 :=
  shapeCast (Sg n) (matmul (DotDims.plain 128 128 (4 * n)) none q (shapeCast (Sf n) k rfl) (constant (Sf n) .f32 0x00000000#32)) (fg n)
def sh (s : FVec F (Sg n) .f32) : FVec F (Sg n) .f32 :=
  subf s (broadcastTo (Sg n) (shapeCast (Su n)
    (multiReduction .maximumf [2] (Sr n) s 0xFF800000#32 (red n) (.inl rfl) rfl) (ru n)) (bc n))
def lse (s : FVec F (Sg n) .f32) : FVec F (Su n) .f32 :=
  log (shapeCast (Su n) (multiReduction .add [2] (Sr n) (exp s) 0x00000000#32 (red n) (.inl rfl) rfl) (ru n))
def logp (q : FVec F S128x128 .bf16) (k : Vec F (Sf n) .bf16) : FVec F (Sf n) .f32 :=
  shapeCast (Sf n) (subf (sh n (sc n q k)) (broadcastTo (Sg n) (lse n (sh n (sc n q k))) (bc n))) (fg n).symm
def chunk (q : FVec F S128x128 .bf16) (old : FVec F (Sr n) .f32) (k : Vec F (Sf n) .bf16) : FVec F (Sf n) .f32 :=
  addf (shapeCast (Sf n) (broadcastTo (Sg n) (shapeCast (Su n) old (ru n)) (bc n)) (fg n).symm) (logp n q k)
end Pieces

theorem group_apply {α : Type} (x : (Sf n).Idx → α) (b : Fin 128) (g : Fin n) (e : Fin 4) :
    shapeCast (Sg n) x (fg n) (ix3 b g e) = x (ix2 b ⟨4 * g.val + e.val, by omega⟩) :=
  shapeCast_apply x (fg n) _ _ (by
    rw [Shape.rowMajor_val_three, Shape.rowMajor_val_two]
    show b.val * (4 * n) + (4 * g.val + e.val) = (b.val * n + g.val) * 4 + e.val
    ring)

theorem flat_apply {α : Type} (x : (Sg n).Idx → α) (b : Fin 128) (j : Fin (4 * n)) :
    shapeCast (Sf n) x (fg n).symm (ix2 b j) = x (ix3 b ⟨j.val / 4, by omega⟩ ⟨j.val % 4, by omega⟩) :=
  shapeCast_apply x (fg n).symm _ _ (by
    rw [Shape.rowMajor_val_three, Shape.rowMajor_val_two]
    show (b.val * n + j.val / 4) * 4 + j.val % 4 = b.val * (4 * n) + j.val
    rw [show b.val * (4 * n) = b.val * n * 4 by ring]
    omega)

theorem unit_apply {α : Type} (x : (Sr n).Idx → α) (b : Fin 128) (g : Fin n) (z : Fin 1) :
    shapeCast (Su n) x (ru n) (ix3 b g z) = x (ix2 b g) :=
  shapeCast_apply x (ru n) _ _ (by
    rw [Shape.rowMajor_val_three, Shape.rowMajor_val_two]
    show b.val * n + g.val = (b.val * n + g.val) * 1 + z.val
    omega)

theorem bcast_apply {α : Type} (x : (Su n).Idx → α) (b : Fin 128) (g : Fin n) (e : Fin 4) :
    broadcastTo (Sg n) x (bc n) (ix3 b g e) = x (ix3 b g 0) := by
  refine broadcastTo_apply x (bc n) (ix3 b g e) (ix3 b g 0) fun ax => ?_
  match ax with
  | ⟨0, _⟩ => rfl
  | ⟨1, _⟩ =>
    show g.val = if n = 1 then 0 else g.val
    by_cases h : n = 1
    · rw [if_pos h]; omega
    · rw [if_neg h]
  | ⟨2, _⟩ => rfl

theorem lift_eq (b : Fin 128) (g : Fin n) (e : Fin 4) : (red n).lift (ix2 b g) e = ix3 b g e :=
  funext fun a => Fin.ext (by
    match a with
    | ⟨0, _⟩ => rfl
    | ⟨1, _⟩ => rfl
    | ⟨2, _⟩ => rfl)

theorem sc_apply (q : FVec Ideal S128x128 .bf16) (k : Vec Ideal (Sf n) .bf16) (b : Fin 128) (g : Fin n) (e : Fin 4) :
    sc n q k (ix3 b g e) = ∑ m : Fin 128, q (ix2 b m) * rd2 k m.val (4 * g.val + e.val) := by
  unfold sc
  rw [group_apply, mm_apply (DotDims.plain 128 128 (4 * n)) rfl, shapeCast_self]
  refine Finset.sum_congr rfl fun m _ => ?_
  rw [rd2_of k m.val (4 * g.val + e.val) m.isLt (by omega)]

theorem sh_apply (s : FVec Ideal (Sg n) .f32) (b : Fin 128) (g : Fin n) (e : Fin 4) :
    sh n s (ix3 b g e) = s (ix3 b g e)
      - (Finset.univ : Finset (Fin 4)).fold max (Ideal.ofBits .f32 0xFF800000#32) (fun e' => s (ix3 b g e')) := by
  unfold sh
  rw [subf_apply, bcast_apply, unit_apply]
  refine congrArg (s (ix3 b g e) - ·) ?_
  refine (Ideal.multiReduction_maximumf_single s _ (red n) (.inl rfl) rfl (ix2 b g)).trans ?_
  show (Finset.univ : Finset (Fin 4)).fold max (Ideal.ofBits .f32 0xFF800000#32)
    (fun e' : Fin 4 => s ((red n).lift (ix2 b g) e')) = _
  simp only [lift_eq]

theorem lse_apply (s : FVec Ideal (Sg n) .f32) (b : Fin 128) (g : Fin n) (z : Fin 1) :
    lse n s (ix3 b g z) = Ideal.log (∑ e' : Fin 4, Ideal.exp (s (ix3 b g e'))) := by
  unfold lse
  show Ideal.log (shapeCast (Su n) _ (ru n) (ix3 b g z)) = _
  rw [unit_apply]
  refine congrArg Ideal.log ?_
  refine (Ideal.multiReduction_add_single (exp s) _ (red n) (.inl rfl) rfl (ix2 b g)).trans ?_
  show ∑ e' : Fin 4, Ideal.exp (s ((red n).lift (ix2 b g) e')) = _
  simp only [lift_eq]

theorem logp_apply (q : FVec Ideal S128x128 .bf16) (k : Vec Ideal (Sf n) .bf16) (b : Fin 128) (j : Fin (4 * n)) :
    logp n q k (ix2 b j)
      = lsm (fun e => ∑ m : Fin 128, q (ix2 b m) * rd2 k m.val (4 * (j.val / 4) + e)) (j.val % 4) := by
  unfold logp
  rw [flat_apply, subf_apply, bcast_apply, lse_apply, sh_apply]
  simp only [sh_apply, sc_apply]
  rfl

theorem chunk_apply (q : FVec Ideal S128x128 .bf16) (old : FVec Ideal (Sr n) .f32) (k : Vec Ideal (Sf n) .bf16)
    (b : Fin 128) (j : Fin (4 * n)) :
    chunk n q old k (ix2 b j) = old (ix2 b ⟨j.val / 4, by omega⟩)
      + lsm (fun e => ∑ m : Fin 128, q (ix2 b m) * rd2 k m.val (4 * (j.val / 4) + e)) (j.val % 4) := by
  unfold chunk
  rw [addf_apply, flat_apply, bcast_apply, unit_apply, logp_apply]

variable (C : ℕ)

/-- A level of `C` chunks of 256 nodes: its parents and its block of keys. -/
abbrev SP : Shape := ⟨2, ![128, 64 * C]⟩
abbrev SK : Shape := ⟨2, ![128, 256 * C]⟩

theorem slc (c : Fin C) : (SP C).Slices ![0, 64 * c.val] S128x64 :=
  ⟨rfl, fun a => by
    have hc := c.isLt
    match a with
    | ⟨0, _⟩ => show 0 + 128 ≤ 128; omega
    | ⟨1, _⟩ => show 64 * c.val + 64 ≤ 64 * C; omega⟩

theorem inb (c : Fin C) : ∀ a, (![0, 256 * c.val] : Fin 2 → Nat) a + S128x256.size a ≤ (SK C).size a := fun a => by
  have hc := c.isLt
  match a with
  | ⟨0, _⟩ => show 0 + 128 ≤ 128; omega
  | ⟨1, _⟩ => show 256 * c.val + 256 ≤ 256 * C; omega

/-- Chunk `c` of the level: from the parents' columns `64 c …` and the keys' columns `256 c …`. -/
def lvlF {F : FTy → Type} [FloatOps F] (q : FVec F S128x128 .bf16) (P : FVec F (SP C) .f32) (xk : Vec F (SK C) .bf16) (c : Fin C) :
    FVec F S128x256 .f32 :=
  chunk 64 q (extractStridedSlice S128x64 ![0, 64 * c.val] P (slc C c))
    (View.ld xk (Rect.unit (s := SK C) ![0, 256 * c.val] S128x256.size (inb C c)))

theorem hcat {α : Type} (f : Fin C → (S128x256.Idx → α)) (h : Shape.Concatenates (List.replicate C S128x256) (SK C) 1) :
    Shape.Concatenates ((List.ofFn fun c : Fin C => (⟨S128x256, f c⟩ : (s : Shape) × (s.Idx → α))).map (·.1)) (SK C) 1 := by
  have e : (List.ofFn fun c : Fin C => (⟨S128x256, f c⟩ : (s : Shape) × (s.Idx → α))).map (·.1) = List.replicate C S128x256 := by
    rw [List.map_ofFn]; exact List.ofFn_const C S128x256
  rwa [e]

theorem ld_rd2 (xk : Vec Ideal (SK C) .bf16) (c : Fin C) (m jj : ℕ) (hm : m < 128) (hj : jj < 256) :
    rd2 (View.ld xk (Rect.unit (s := SK C) ![0, 256 * c.val] S128x256.size (inb C c))) m jj = rd2 xk m (256 * c.val + jj) := by
  have hc := c.isLt
  rw [rd2_of _ m jj hm hj, rd2_of xk m (256 * c.val + jj) hm (by omega)]
  show xk _ = xk _
  refine congrArg xk (funext fun a => Fin.ext ?_)
  match a with
  | ⟨0, _⟩ => show 0 + 1 * m = m; omega
  | ⟨1, _⟩ => show 256 * c.val + 1 * jj = 256 * c.val + jj; omega

/-- The chunks joined, at node `j`: chunk `j / 256` at its node `j % 256`, whose parent is `j / 4` and whose group's keys are columns `4 (j / 4) + e`. -/
theorem lvl_read (q : FVec Ideal S128x128 .bf16) (P : FVec Ideal (SP C) .f32) (xk : Vec Ideal (SK C) .bf16)
    (hc : Shape.Concatenates (List.replicate C S128x256) (SK C) 1) (O : Vec Ideal (SK C) .f32)
    (h : O = concatenate (SK C) 1 (List.ofFn fun c : Fin C => (⟨S128x256, lvlF C q P xk c⟩ : (s : Shape) × (s.Idx → Ideal .f32))) (hcat C _ hc))
    (b : Fin 128) (j : Fin (256 * C)) :
    O (ix2 b j) = P (ix2 b ⟨j.val / 4, by omega⟩)
      + lsm (fun e => ∑ m : Fin 128, q (ix2 b m) * rd2 xk m.val (4 * (j.val / 4) + e)) (j.val % 4) := by
  have hj := j.isLt
  rw [h, concatenate_ofFn_apply 1 (fun c => lvlF C q P xk c) (hcat C _ hc) rfl 256 rfl (ix2 b j) ⟨j.val / 256, by omega⟩ rfl
    (ix2 b ⟨j.val % 256, by omega⟩) rfl (fun a ha => by
      match a with
      | ⟨0, _⟩ => rfl
      | ⟨1, _⟩ => exact absurd rfl ha)]
  unfold lvlF
  refine (chunk_apply 64 q _ _ b ⟨j.val % 256, by omega⟩).trans ?_
  congr 1
  · exact slice2_axis1_apply _ P _ b _ _ (by show j.val / 4 = 64 * (j.val / 256) + j.val % 256 / 4; omega)
  · have e4 : j.val % 256 % 4 = j.val % 4 := by omega
    show lsm _ (j.val % 256 % 4) = _
    rw [e4]
    refine lsm_congr (fun e => ?_) ⟨j.val % 4, by omega⟩
    refine Finset.sum_congr rfl fun m _ => ?_
    have he := e.isLt
    rw [ld_rd2 C xk _ m.val _ m.isLt (by omega)]
    congr 2
    show 256 * (j.val / 256) + (4 * (j.val % 256 / 4) + e.val) = 4 * (j.val / 4) + e.val
    omega

end Cert.KernelIdeal.Tree

end
-- ==== Proof.KLvl.lean ====
import proofs.«140810_j55551107006470_1_alg».proof.Proof.FrameKI
import proofs.«140810_j55551107006470_1_alg».proof.Proof.KQ
import proofs.«140810_j55551107006470_1_alg».proof.Proof.KLayer

noncomputable section

namespace Cert.KernelIdeal.Tree

open Cert.KernelIdeal Cert.KernelIdeal.Gen Cert.KernelIdeal.GenP Idealize.ShloMosaic Idealize.ShloMosaic.ValueIdx Cert.TreeSpec

variable (x0 : Vec Ideal S128x64 .f32) (x1 : Vec Ideal S64x128 .f32) (x2 : Vec Ideal S1x128 .f32) (x3 : Vec Ideal S128x4 .bf16) (x4 : Vec Ideal S128x16 .bf16) (x5 : Vec Ideal S128x64 .bf16) (x6 : Vec Ideal S128x256 .bf16) (x7 : Vec Ideal S128x1024 .bf16) (x8 : Vec Ideal S128x4096 .bf16) (x9 : Vec Ideal S128x16384 .bf16)

private theorem hz2 : (![0, 0] : Fin 2 → Nat) = fun _ => 0 := funext fun a => by fin_cases a <;> rfl

theorem lvl1 (b : Fin 128) (j : Fin 4) :
    out1_10 x0 x1 x2 x3 x4 x5 x6 x7 x8 x9 (ix2 b j)
      = lsm (fun e => ∑ m : Fin 128, Qv x0 x1 x2 (ix2 b m) * rd2 x3 m.val (4 * (j.val / 4) + e)) (j.val % 4) := by
  unfold out1_10
  rw [View.canon_unit_zero hz2, View.ld_unit_zero hz2 _ x3]
  exact logp_apply 1 (Qv x0 x1 x2) x3 b j

theorem lvl2 (b : Fin 128) (j : Fin 16) :
    out1_11 x0 x1 x2 x3 x4 x5 x6 x7 x8 x9 (ix2 b j)
      = out1_10 x0 x1 x2 x3 x4 x5 x6 x7 x8 x9 (ix2 b ⟨j.val / 4, by omega⟩)
        + lsm (fun e => ∑ m : Fin 128, Qv x0 x1 x2 (ix2 b m) * rd2 x4 m.val (4 * (j.val / 4) + e)) (j.val % 4) := by
  unfold out1_11 out1_10
  rw [View.canon_unit_zero hz2, View.canon_unit_zero hz2, View.ld_unit_zero hz2 _ x4]
  exact chunk_apply 4 (Qv x0 x1 x2) _ x4 b j

theorem lvl3 (b : Fin 128) (j : Fin 64) :
    out1_12 x0 x1 x2 x3 x4 x5 x6 x7 x8 x9 (ix2 b j)
      = out1_11 x0 x1 x2 x3 x4 x5 x6 x7 x8 x9 (ix2 b ⟨j.val / 4, by omega⟩)
        + lsm (fun e => ∑ m : Fin 128, Qv x0 x1 x2 (ix2 b m) * rd2 x5 m.val (4 * (j.val / 4) + e)) (j.val % 4) := by
  unfold out1_12 out1_11
  rw [View.canon_unit_zero hz2, View.canon_unit_zero hz2, View.ld_unit_zero hz2 _ x5]
  exact chunk_apply 16 (Qv x0 x1 x2) _ x5 b j

theorem lvl4 (b : Fin 128) (j : Fin 256) :
    out1_13 x0 x1 x2 x3 x4 x5 x6 x7 x8 x9 (ix2 b j)
      = out1_12 x0 x1 x2 x3 x4 x5 x6 x7 x8 x9 (ix2 b ⟨j.val / 4, by omega⟩)
        + lsm (fun e => ∑ m : Fin 128, Qv x0 x1 x2 (ix2 b m) * rd2 x6 m.val (4 * (j.val / 4) + e)) (j.val % 4) := by
  unfold out1_13 out1_12
  rw [View.canon_unit_zero hz2, View.canon_unit_zero hz2, View.ld_unit_zero hz2 _ x6]
  exact chunk_apply 64 (Qv x0 x1 x2) _ x6 b j

theorem lvl5 (b : Fin 128) (j : Fin 1024) :
    out1_14 x0 x1 x2 x3 x4 x5 x6 x7 x8 x9 (ix2 b j)
      = out1_13 x0 x1 x2 x3 x4 x5 x6 x7 x8 x9 (ix2 b ⟨j.val / 4, by omega⟩)
        + lsm (fun e => ∑ m : Fin 128, Qv x0 x1 x2 (ix2 b m) * rd2 x7 m.val (4 * (j.val / 4) + e)) (j.val % 4) := by
  refine lvl_read 4 (Qv x0 x1 x2) (out1_13 x0 x1 x2 x3 x4 x5 x6 x7 x8 x9) x7 (by decide) (out1_14 x0 x1 x2 x3 x4 x5 x6 x7 x8 x9) ?_ b j
  unfold out1_14 out1_13
  rw [View.canon_unit_zero hz2, View.canon_unit_zero hz2]
  rfl

theorem lvl6 (b : Fin 128) (j : Fin 4096) :
    out1_15 x0 x1 x2 x3 x4 x5 x6 x7 x8 x9 (ix2 b j)
      = out1_14 x0 x1 x2 x3 x4 x5 x6 x7 x8 x9 (ix2 b ⟨j.val / 4, by omega⟩)
        + lsm (fun e => ∑ m : Fin 128, Qv x0 x1 x2 (ix2 b m) * rd2 x8 m.val (4 * (j.val / 4) + e)) (j.val % 4) := by
  refine lvl_read 16 (Qv x0 x1 x2) (out1_14 x0 x1 x2 x3 x4 x5 x6 x7 x8 x9) x8 (by decide) (out1_15 x0 x1 x2 x3 x4 x5 x6 x7 x8 x9) ?_ b j
  unfold out1_15 out1_14
  rw [View.canon_unit_zero hz2, View.canon_unit_zero hz2]
  rfl

theorem lvl7 (b : Fin 128) (j : Fin 16384) :
    out1_16 x0 x1 x2 x3 x4 x5 x6 x7 x8 x9 (ix2 b j)
      = out1_15 x0 x1 x2 x3 x4 x5 x6 x7 x8 x9 (ix2 b ⟨j.val / 4, by omega⟩)
        + lsm (fun e => ∑ m : Fin 128, Qv x0 x1 x2 (ix2 b m) * rd2 x9 m.val (4 * (j.val / 4) + e)) (j.val % 4) := by
  refine lvl_read 64 (Qv x0 x1 x2) (out1_15 x0 x1 x2 x3 x4 x5 x6 x7 x8 x9) x9 (by decide) (out1_16 x0 x1 x2 x3 x4 x5 x6 x7 x8 x9) ?_ b j
  unfold out1_16 out1_15
  rw [View.canon_unit_zero hz2, View.canon_unit_zero hz2]
  rfl

end Cert.KernelIdeal.Tree

end
-- ==== Proof.KBlk.lean ====
import proofs.«140810_j55551107006470_1_alg».proof.Proof.FrameKI
import proofs.«140810_j55551107006470_1_alg».proof.Proof.KQ
import proofs.«140810_j55551107006470_1_alg».proof.Proof.KKeys
import proofs.«140810_j55551107006470_1_alg».proof.Proof.KKeyArr
import proofs.«140810_j55551107006470_1_alg».proof.Proof.KLvl
import proofs.«140810_j55551107006470_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Tree

open Cert.KernelIdeal Cert.KernelIdeal.Gen Cert.KernelIdeal.GenP Idealize.ShloMosaic Idealize.ShloMosaic.TcCoe Idealize.ShloMosaic.ValueIdx Idealize.SL.Sem Cert.TreeSpec
open Idealize.ShloMosaic.Pipeline (Dat Cfg Window)

variable (m : (ℓ : Loc nD τ sig) → Buf (Elt Ideal) ℓ) (ρ : Dev nD → PrngReg)

/-- The specification's running result at device `c`'s six arguments. -/
abbrev curK (c : Dev nD) : ℕ → ℕ → ℕ → EReal := cur (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

private theorem hz2 : (![0, 0] : Fin 2 → Nat) = fun _ => 0 := funext fun a => by fin_cases a <;> rfl

private theorem W2_args (c : Dev nD) : W2 m ρ c (Proc.devRef .tc main_arg0) = m ((c : Thread nD τ).loc main_arg0)
    ∧ W2 m ρ c (Proc.devRef .tc main_arg1) = m ((c : Thread nD τ).loc main_arg1) ∧ W2 m ρ c (Proc.devRef .tc main_arg2) = m ((c : Thread nD τ).loc main_arg2) := by
  refine ⟨?_, ?_, ?_⟩ <;> refine (W2_of_ne m ρ c _ (by decide)).trans ?_ <;>
    (show StableHlo.after hostOps0 (W0 m ρ c) _ = _; after_results)

private theorem V3_args (c : Dev nD) : V3 m ρ c main_arg0 = m ((c : Thread nD τ).loc main_arg0)
    ∧ (V3 m ρ c main_v3 : S64x128.Idx → EReal) = transpose S64x128 [1, 0] (m ((c : Thread nD τ).loc main_arg1)) transposes_S128x64_S64x128_1_0
    ∧ (V3 m ρ c main_v4 : S1x128.Idx → EReal) = shapeCast S1x128 (m ((c : Thread nD τ).loc main_arg2)) shapeCasts_S128_S1x128 := by
  obtain ⟨h0, h1, h2⟩ := W2_args m ρ c
  refine ⟨?_, ?_, ?_⟩ <;> (show StableHlo.after hostOps1 (W2 m ρ c) (Proc.devRef .tc _) = _; after_results)
  · exact h0
  · rw [h1]
  · rw [h2]; rfl

private theorem idxW0 : ∀ t : Fin grid1.N, win1_0.index t (0 : Fin 2) = t.val ∧ win1_0.index t (1 : Fin 2) = 0 := by decide +kernel
private theorem idxZ : ∀ w : Fin 17, 0 < w.val → w.val < 10 → ∀ (t : Fin grid1.N) (a : Fin (win1 w).shape.rank), (win1 w).index t a = 0 := by
  decide +kernel

/-- Rows `128 t … 128 t + 127` of the hidden states. -/
private theorem B0_apply (c : Dev nD) (t : Fin cfg1.N) (b : Fin 128) (k : Fin 64) :
    (iblk1 (V3 m ρ) c 0 t) (ix2 b k) = rd2 (m ((c : Thread nD τ).loc main_arg0)) (128 * t.val + b.val) k.val := by
  obtain ⟨e0, e1⟩ := idxW0 t
  have ht : t.val < 32 := t.isLt
  rw [rd2_of _ (128 * t.val + b.val) k.val (by omega) k.isLt]
  exact (congrFun (V3_args m ρ c).1 _).trans (congrArg _ (Shape.idx_ext₂
    (by show win1_0.index t (0 : Fin 2) * 128 + 1 * b.val = 128 * t.val + b.val; omega)
    (by show win1_0.index t (1 : Fin 2) * 64 + 1 * k.val = k.val; omega)))

/-- The query weights, transposed. -/
private theorem B1_apply (c : Dev nD) (t : Fin cfg1.N) (k : Fin 64) (mm : Fin 128) :
    (iblk1 (V3 m ρ) c 1 t) (ix2 k mm) = rd2 (m ((c : Thread nD τ).loc main_arg1)) mm.val k.val := by
  have he : ((cfg1.win 1).blk t).view.emb (ix2 k mm) = ix2 k mm :=
    funext fun a => Fin.ext (win1_1.rect_emb_val_of_index_zero t a (idxZ 1 (by decide) (by decide) t a) (ix2 k mm))
  show (V3 m ρ c main_v3 : S64x128.Idx → EReal) (((cfg1.win 1).blk t).view.emb (ix2 k mm)) = _
  rw [he, (V3_args m ρ c).2.1, rd2_val, transpose_ix2_apply]

/-- The query bias as one row. -/
private theorem B2_apply (c : Dev nD) (t : Fin cfg1.N) (mm : Fin 128) :
    (iblk1 (V3 m ρ) c 2 t) (ix2 0 mm) = rd1 (m ((c : Thread nD τ).loc main_arg2)) mm.val := by
  have he : ((cfg1.win 2).blk t).view.emb (ix2 (0 : Fin 1) mm) = ix2 0 mm :=
    funext fun a => Fin.ext (win1_2.rect_emb_val_of_index_zero t a (idxZ 2 (by decide) (by decide) t a) (ix2 0 mm))
  show (V3 m ρ c main_v4 : S1x128.Idx → EReal) (((cfg1.win 2).blk t).view.emb (ix2 0 mm)) = _
  rw [he, (V3_args m ρ c).2.2, rd1_val, shapeCast_a_1a_apply]

/-- The specification's query of rows `128 t … 128 t + 127`. -/
private theorem Q_apply (c : Dev nD) (t : Fin cfg1.N) (b mm : Fin 128) :
    Qv (iblk1 (V3 m ρ) c 0 t) (iblk1 (V3 m ρ) c 1 t) (iblk1 (V3 m ρ) c 2 t) (ix2 b mm) = query (m ((c : Thread nD τ).loc main_arg0)) (m ((c : Thread nD τ).loc main_arg1)) (m ((c : Thread nD τ).loc main_arg2)) (128 * t.val + b.val) mm.val := by
  unfold Qv
  rw [View.ld_unit_zero (S := S128x64) hz2, View.ld_unit_zero (S := S64x128) hz2, View.ld_unit_zero (S := S1x128) hz2, queryPay]
  unfold query
  rw [B2_apply]
  congr 1
  refine Finset.sum_congr rfl fun k _ => ?_
  rw [B0_apply, B1_apply]

/-- Over keys `K` that are the specification's keys of level `d`, the log-probability of a group of four is the specification's layer. -/
private theorem layer_eq (c : Dev nD) (t : Fin cfg1.N) {n : ℕ} (d : ℕ) (K A : (⟨2, ![128, n]⟩ : Shape).Idx → EReal) (hK : K = A)
    (hA : ∀ (mm : Fin 128) (j : Fin n), A (ix2 mm j) = key (m ((c : Thread nD τ).loc main_arg3)) (m ((c : Thread nD τ).loc main_arg4)) (m ((c : Thread nD τ).loc main_arg5)) d j.val mm.val)
    (b : Fin 128) (j : ℕ) (hj : j < n) (hn : n % 4 = 0) :
    lsm (fun e => ∑ mm : Fin 128, Qv (iblk1 (V3 m ρ) c 0 t) (iblk1 (V3 m ρ) c 1 t) (iblk1 (V3 m ρ) c 2 t) (ix2 b mm) * rd2 K mm.val (4 * (j / 4) + e)) (j % 4)
      = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) d (128 * t.val + b.val) j := by
  subst hK
  unfold layer
  refine lsm_congr (fun e => ?_) ⟨j % 4, by omega⟩
  unfold score
  refine Finset.sum_congr rfl fun mm _ => ?_
  rw [Q_apply, rd2_of K mm.val _ mm.isLt (by omega), hA]

private theorem K0_eq (c : Dev nD) (t : Fin cfg1.N) : iblk1 (V3 m ρ) c 3 t = (dat0 (V1 m ρ) c).arrAt 3 cfg0.N := by
  refine funext fun y => (congrArg (V3 m ρ c main_v2_0) (funext fun a => Fin.ext (win1_3.rect_emb_val_of_index_zero t a
    (idxZ 3 (by decide) (by decide) t a) y))).trans (congrFun ?_ y)
  show StableHlo.after hostOps1 (W2 m ρ c) (Proc.devRef .tc main_v2_0) = _
  after_results
  exact W2_arr m ρ c 3

private theorem K1_eq (c : Dev nD) (t : Fin cfg1.N) : iblk1 (V3 m ρ) c 4 t = (dat0 (V1 m ρ) c).arrAt 4 cfg0.N := by
  refine funext fun y => (congrArg (V3 m ρ c main_v2_1) (funext fun a => Fin.ext (win1_4.rect_emb_val_of_index_zero t a
    (idxZ 4 (by decide) (by decide) t a) y))).trans (congrFun ?_ y)
  show StableHlo.after hostOps1 (W2 m ρ c) (Proc.devRef .tc main_v2_1) = _
  after_results
  exact W2_arr m ρ c 4

private theorem K2_eq (c : Dev nD) (t : Fin cfg1.N) : iblk1 (V3 m ρ) c 5 t = (dat0 (V1 m ρ) c).arrAt 5 cfg0.N := by
  refine funext fun y => (congrArg (V3 m ρ c main_v2_2) (funext fun a => Fin.ext (win1_5.rect_emb_val_of_index_zero t a
    (idxZ 5 (by decide) (by decide) t a) y))).trans (congrFun ?_ y)
  show StableHlo.after hostOps1 (W2 m ρ c) (Proc.devRef .tc main_v2_2) = _
  after_results
  exact W2_arr m ρ c 5

private theorem K3_eq (c : Dev nD) (t : Fin cfg1.N) : iblk1 (V3 m ρ) c 6 t = (dat0 (V1 m ρ) c).arrAt 6 cfg0.N := by
  refine funext fun y => (congrArg (V3 m ρ c main_v2_3) (funext fun a => Fin.ext (win1_6.rect_emb_val_of_index_zero t a
    (idxZ 6 (by decide) (by decide) t a) y))).trans (congrFun ?_ y)
  show StableHlo.after hostOps1 (W2 m ρ c) (Proc.devRef .tc main_v2_3) = _
  after_results
  exact W2_arr m ρ c 6

private theorem K4_eq (c : Dev nD) (t : Fin cfg1.N) : iblk1 (V3 m ρ) c 7 t = (dat0 (V1 m ρ) c).arrAt 7 cfg0.N := by
  refine funext fun y => (congrArg (V3 m ρ c main_v2_4) (funext fun a => Fin.ext (win1_7.rect_emb_val_of_index_zero t a
    (idxZ 7 (by decide) (by decide) t a) y))).trans (congrFun ?_ y)
  show StableHlo.after hostOps1 (W2 m ρ c) (Proc.devRef .tc main_v2_4) = _
  after_results
  exact W2_arr m ρ c 7

private theorem K5_eq (c : Dev nD) (t : Fin cfg1.N) : iblk1 (V3 m ρ) c 8 t = (dat0 (V1 m ρ) c).arrAt 8 cfg0.N := by
  refine funext fun y => (congrArg (V3 m ρ c main_v2_5) (funext fun a => Fin.ext (win1_8.rect_emb_val_of_index_zero t a
    (idxZ 8 (by decide) (by decide) t a) y))).trans (congrFun ?_ y)
  show StableHlo.after hostOps1 (W2 m ρ c) (Proc.devRef .tc main_v2_5) = _
  after_results
  exact W2_arr m ρ c 8

private theorem K6_eq (c : Dev nD) (t : Fin cfg1.N) : iblk1 (V3 m ρ) c 9 t = (dat0 (V1 m ρ) c).arrAt 9 cfg0.N := by
  refine funext fun y => (congrArg (V3 m ρ c main_v2_6) (funext fun a => Fin.ext (win1_9.rect_emb_val_of_index_zero t a
    (idxZ 9 (by decide) (by decide) t a) y))).trans (congrFun ?_ y)
  show StableHlo.after hostOps1 (W2 m ρ c) (Proc.devRef .tc main_v2_6) = _
  after_results
  exact W2_arr m ρ c 9

theorem blkLvl0 (c : Dev nD) (t : Fin cfg1.N) (b : Fin 128) (j : Fin 4) :
    (dat1 (V3 m ρ) c).after 10 t (ix2 b j) = curK m c 0 (128 * t.val + b.val) j.val := by
  rw [after1_10, lvl1]
  exact layer_eq m ρ c t (n := 4) 0 (iblk1 (V3 m ρ) c 3 t) _ (K0_eq m ρ c t) (keyArr0 m ρ c) b j.val j.isLt rfl

theorem blkLvl1 (c : Dev nD) (t : Fin cfg1.N) (b : Fin 128) (j : Fin 16) :
    (dat1 (V3 m ρ) c).after 11 t (ix2 b j) = curK m c 1 (128 * t.val + b.val) j.val := by
  rw [after1_11, lvl2, ← after1_10 (V3 m ρ) c t]
  exact congrArg₂ (· + ·) (blkLvl0 m ρ c t b ⟨j.val / 4, by omega⟩)
    (layer_eq m ρ c t (n := 16) 1 (iblk1 (V3 m ρ) c 4 t) _ (K1_eq m ρ c t) (keyArr1 m ρ c) b j.val j.isLt rfl)

theorem blkLvl2 (c : Dev nD) (t : Fin cfg1.N) (b : Fin 128) (j : Fin 64) :
    (dat1 (V3 m ρ) c).after 12 t (ix2 b j) = curK m c 2 (128 * t.val + b.val) j.val := by
  rw [after1_12, lvl3, ← after1_11 (V3 m ρ) c t]
  exact congrArg₂ (· + ·) (blkLvl1 m ρ c t b ⟨j.val / 4, by omega⟩)
    (layer_eq m ρ c t (n := 64) 2 (iblk1 (V3 m ρ) c 5 t) _ (K2_eq m ρ c t) (keyArr2 m ρ c) b j.val j.isLt rfl)

theorem blkLvl3 (c : Dev nD) (t : Fin cfg1.N) (b : Fin 128) (j : Fin 256) :
    (dat1 (V3 m ρ) c).after 13 t (ix2 b j) = curK m c 3 (128 * t.val + b.val) j.val := by
  rw [after1_13, lvl4, ← after1_12 (V3 m ρ) c t]
  exact congrArg₂ (· + ·) (blkLvl2 m ρ c t b ⟨j.val / 4, by omega⟩)
    (layer_eq m ρ c t (n := 256) 3 (iblk1 (V3 m ρ) c 6 t) _ (K3_eq m ρ c t) (keyArr3 m ρ c) b j.val j.isLt rfl)

theorem blkLvl4 (c : Dev nD) (t : Fin cfg1.N) (b : Fin 128) (j : Fin 1024) :
    (dat1 (V3 m ρ) c).after 14 t (ix2 b j) = curK m c 4 (128 * t.val + b.val) j.val := by
  rw [after1_14, lvl5, ← after1_13 (V3 m ρ) c t]
  exact congrArg₂ (· + ·) (blkLvl3 m ρ c t b ⟨j.val / 4, by omega⟩)
    (layer_eq m ρ c t (n := 1024) 4 (iblk1 (V3 m ρ) c 7 t) _ (K4_eq m ρ c t) (keyArr4 m ρ c) b j.val j.isLt rfl)

theorem blkLvl5 (c : Dev nD) (t : Fin cfg1.N) (b : Fin 128) (j : Fin 4096) :
    (dat1 (V3 m ρ) c).after 15 t (ix2 b j) = curK m c 5 (128 * t.val + b.val) j.val := by
  rw [after1_15, lvl6, ← after1_14 (V3 m ρ) c t]
  exact congrArg₂ (· + ·) (blkLvl4 m ρ c t b ⟨j.val / 4, by omega⟩)
    (layer_eq m ρ c t (n := 4096) 5 (iblk1 (V3 m ρ) c 8 t) _ (K5_eq m ρ c t) (keyArr5 m ρ c) b j.val j.isLt rfl)

theorem blkLvl6 (c : Dev nD) (t : Fin cfg1.N) (b : Fin 128) (j : Fin 16384) :
    (dat1 (V3 m ρ) c).after 16 t (ix2 b j) = curK m c 6 (128 * t.val + b.val) j.val := by
  rw [after1_16, lvl7, ← after1_15 (V3 m ρ) c t]
  exact congrArg₂ (· + ·) (blkLvl5 m ρ c t b ⟨j.val / 4, by omega⟩)
    (layer_eq m ρ c t (n := 16384) 6 (iblk1 (V3 m ρ) c 9 t) _ (K6_eq m ρ c t) (keyArr6 m ρ c) b j.val j.isLt rfl)

end Cert.KernelIdeal.Tree

end
-- ==== Proof.KArr.lean ====
import proofs.«140810_j55551107006470_1_alg».proof.Proof.FrameKI
import proofs.«140810_j55551107006470_1_alg».proof.Proof.KBlk
import proofs.«140810_j55551107006470_1_alg».proof.Proof.Spec
import Idealize.ShloMosaic.Lib.Pipeline.Value
import Idealize.ShloMosaic.Lib.ValueIdx

noncomputable section

namespace Cert.KernelIdeal.Tree

open Cert.KernelIdeal Cert.KernelIdeal.Gen Cert.KernelIdeal.GenP Idealize.ShloMosaic Idealize.ShloMosaic.TcCoe Idealize.ShloMosaic.ValueIdx Idealize.SL.Sem Cert.TreeSpec
open Idealize.ShloMosaic.Pipeline (Dat Cfg Window)

variable (m : (ℓ : Loc nD τ sig) → Buf (Elt Ideal) ℓ) (ρ : Dev nD → PrngReg)

private theorem idxRows : ∀ w : Fin 17, w.val = 0 ∨ 10 ≤ w.val → ∀ (t : Fin grid1.N) (a : Fin (win1 w).shape.rank),
    (win1 w).index t a = if a.val = 0 then t.val else 0 := by decide +kernel

/-- Element `y` of the block of 128 rows and all `n` columns at block row `t` sits at row `128 t + y 0`, column `y 1`. -/
private theorem rowBlock_emb {n : ℕ} {α : Type} (f : ℕ → ℕ → α) (idx : Fin 2 → ℕ) (t : ℕ) (h : ∀ a : Fin 2, idx a = if a.val = 0 then t else 0)
    (inb : ∀ a, idx a * ![128, n] a + ![128, n] a ≤ ![4096, n] a) (y : (⟨2, ![128, n]⟩ : Shape).Idx) :
    f (128 * t + (y 0).val) (y 1).val = f ((Rect.unit (s := ⟨2, ![4096, n]⟩) (fun a => idx a * ![128, n] a) ![128, n] inb).emb y 0).val
      ((Rect.unit (s := ⟨2, ![4096, n]⟩) (fun a => idx a * ![128, n] a) ![128, n] inb).emb y 1).val := by
  have h0 : idx 0 = t := h 0
  have h1 : idx 1 = 0 := h 1
  exact congrArg₂ f (by show _ = idx 0 * 128 + 1 * (y 0).val; omega) (by show _ = idx 1 * n + 1 * (y 1).val; rw [h1]; omega)

/-- Row `r` of an array of `32 · 128` rows lies in the block of 128 rows and all `n` columns at block row `r / 128`. -/
private theorem mem_rowBlock {n : ℕ} (idx : Fin 2 → ℕ) (i : (⟨2, ![4096, n]⟩ : Shape).Idx) (h : ∀ a : Fin 2, idx a = if a.val = 0 then (i 0).val / 128 else 0)
    (inb : ∀ a, idx a * ![128, n] a + ![128, n] a ≤ ![4096, n] a) :
    i ∈ (Rect.unit (s := ⟨2, ![4096, n]⟩) (fun a => idx a * ![128, n] a) ![128, n] inb).set := by
  have h0 : idx 0 = (i 0).val / 128 := h 0
  have h1 : idx 1 = 0 := h 1
  have hi0 : (i 0).val < 4096 := (i 0).isLt
  have hi1 : (i 1).val < n := (i 1).isLt
  rw [Rect.mem_set_unit]
  intro a
  match a with
  | ⟨0, _⟩ => show idx 0 * 128 ≤ (i 0).val ∧ (i 0).val < idx 0 * 128 + 128; omega
  | ⟨1, _⟩ => show idx 1 * n ≤ (i 1).val ∧ (i 1).val < idx 1 * n + n; rw [h1]; omega

theorem kernel_val0 (c : Dev nD) (B : Fin 4096) (j : Fin 4) :
    W4 m ρ c (Proc.devRef .tc main_v5_0) (ix2 B j) = curK m c 0 B.val j.val := by
  refine (congrFun (W4_arr m ρ c 10) _).trans (congrFun ((dat1 (V3 m ρ) c).arrAt_eq_of_cover 10
    (fun i => curK m c 0 (i 0).val (i 1).val) (fun t _ => funext fun y => ?_) fun i => ?_) (ix2 B j))
  · rw [eq_ix2 y]
    exact (blkLvl0 m ρ c t (y 0) (y 1)).trans
      (rowBlock_emb (n := 4) (curK m c 0) (win1_10.index t) t.val (idxRows 10 (by decide) t) _ _)
  · have hN : (i 0).val / 128 < cfg1.N := Nat.div_lt_of_lt_mul (i 0).isLt
    refine ⟨⟨_, hN⟩, flush1_10 _, ?_⟩
    show i ∈ ((View.whole main_v5_0).slice (win1_10.rect ⟨_, hN⟩)).set
    rw [View.set_slice_whole]
    exact mem_rowBlock (n := 4) (win1_10.index ⟨_, hN⟩) i (idxRows 10 (by decide) ⟨_, hN⟩) _

theorem kernel_val1 (c : Dev nD) (B : Fin 4096) (j : Fin 16) :
    W4 m ρ c (Proc.devRef .tc main_v5_1) (ix2 B j) = curK m c 1 B.val j.val := by
  refine (congrFun (W4_arr m ρ c 11) _).trans (congrFun ((dat1 (V3 m ρ) c).arrAt_eq_of_cover 11
    (fun i => curK m c 1 (i 0).val (i 1).val) (fun t _ => funext fun y => ?_) fun i => ?_) (ix2 B j))
  · rw [eq_ix2 y]
    exact (blkLvl1 m ρ c t (y 0) (y 1)).trans
      (rowBlock_emb (n := 16) (curK m c 1) (win1_11.index t) t.val (idxRows 11 (by decide) t) _ _)
  · have hN : (i 0).val / 128 < cfg1.N := Nat.div_lt_of_lt_mul (i 0).isLt
    refine ⟨⟨_, hN⟩, flush1_11 _, ?_⟩
    show i ∈ ((View.whole main_v5_1).slice (win1_11.rect ⟨_, hN⟩)).set
    rw [View.set_slice_whole]
    exact mem_rowBlock (n := 16) (win1_11.index ⟨_, hN⟩) i (idxRows 11 (by decide) ⟨_, hN⟩) _

theorem kernel_val2 (c : Dev nD) (B : Fin 4096) (j : Fin 64) :
    W4 m ρ c (Proc.devRef .tc main_v5_2) (ix2 B j) = curK m c 2 B.val j.val := by
  refine (congrFun (W4_arr m ρ c 12) _).trans (congrFun ((dat1 (V3 m ρ) c).arrAt_eq_of_cover 12
    (fun i => curK m c 2 (i 0).val (i 1).val) (fun t _ => funext fun y => ?_) fun i => ?_) (ix2 B j))
  · rw [eq_ix2 y]
    exact (blkLvl2 m ρ c t (y 0) (y 1)).trans
      (rowBlock_emb (n := 64) (curK m c 2) (win1_12.index t) t.val (idxRows 12 (by decide) t) _ _)
  · have hN : (i 0).val / 128 < cfg1.N := Nat.div_lt_of_lt_mul (i 0).isLt
    refine ⟨⟨_, hN⟩, flush1_12 _, ?_⟩
    show i ∈ ((View.whole main_v5_2).slice (win1_12.rect ⟨_, hN⟩)).set
    rw [View.set_slice_whole]
    exact mem_rowBlock (n := 64) (win1_12.index ⟨_, hN⟩) i (idxRows 12 (by decide) ⟨_, hN⟩) _

theorem kernel_val3 (c : Dev nD) (B : Fin 4096) (j : Fin 256) :
    W4 m ρ c (Proc.devRef .tc main_v5_3) (ix2 B j) = curK m c 3 B.val j.val := by
  refine (congrFun (W4_arr m ρ c 13) _).trans (congrFun ((dat1 (V3 m ρ) c).arrAt_eq_of_cover 13
    (fun i => curK m c 3 (i 0).val (i 1).val) (fun t _ => funext fun y => ?_) fun i => ?_) (ix2 B j))
  · rw [eq_ix2 y]
    exact (blkLvl3 m ρ c t (y 0) (y 1)).trans
      (rowBlock_emb (n := 256) (curK m c 3) (win1_13.index t) t.val (idxRows 13 (by decide) t) _ _)
  · have hN : (i 0).val / 128 < cfg1.N := Nat.div_lt_of_lt_mul (i 0).isLt
    refine ⟨⟨_, hN⟩, flush1_13 _, ?_⟩
    show i ∈ ((View.whole main_v5_3).slice (win1_13.rect ⟨_, hN⟩)).set
    rw [View.set_slice_whole]
    exact mem_rowBlock (n := 256) (win1_13.index ⟨_, hN⟩) i (idxRows 13 (by decide) ⟨_, hN⟩) _

theorem kernel_val4 (c : Dev nD) (B : Fin 4096) (j : Fin 1024) :
    W4 m ρ c (Proc.devRef .tc main_v5_4) (ix2 B j) = curK m c 4 B.val j.val := by
  refine (congrFun (W4_arr m ρ c 14) _).trans (congrFun ((dat1 (V3 m ρ) c).arrAt_eq_of_cover 14
    (fun i => curK m c 4 (i 0).val (i 1).val) (fun t _ => funext fun y => ?_) fun i => ?_) (ix2 B j))
  · rw [eq_ix2 y]
    exact (blkLvl4 m ρ c t (y 0) (y 1)).trans
      (rowBlock_emb (n := 1024) (curK m c 4) (win1_14.index t) t.val (idxRows 14 (by decide) t) _ _)
  · have hN : (i 0).val / 128 < cfg1.N := Nat.div_lt_of_lt_mul (i 0).isLt
    refine ⟨⟨_, hN⟩, flush1_14 _, ?_⟩
    show i ∈ ((View.whole main_v5_4).slice (win1_14.rect ⟨_, hN⟩)).set
    rw [View.set_slice_whole]
    exact mem_rowBlock (n := 1024) (win1_14.index ⟨_, hN⟩) i (idxRows 14 (by decide) ⟨_, hN⟩) _

theorem kernel_val5 (c : Dev nD) (B : Fin 4096) (j : Fin 4096) :
    W4 m ρ c (Proc.devRef .tc main_v5_5) (ix2 B j) = curK m c 5 B.val j.val := by
  refine (congrFun (W4_arr m ρ c 15) _).trans (congrFun ((dat1 (V3 m ρ) c).arrAt_eq_of_cover 15
    (fun i => curK m c 5 (i 0).val (i 1).val) (fun t _ => funext fun y => ?_) fun i => ?_) (ix2 B j))
  · rw [eq_ix2 y]
    exact (blkLvl5 m ρ c t (y 0) (y 1)).trans
      (rowBlock_emb (n := 4096) (curK m c 5) (win1_15.index t) t.val (idxRows 15 (by decide) t) _ _)
  · have hN : (i 0).val / 128 < cfg1.N := Nat.div_lt_of_lt_mul (i 0).isLt
    refine ⟨⟨_, hN⟩, flush1_15 _, ?_⟩
    show i ∈ ((View.whole main_v5_5).slice (win1_15.rect ⟨_, hN⟩)).set
    rw [View.set_slice_whole]
    exact mem_rowBlock (n := 4096) (win1_15.index ⟨_, hN⟩) i (idxRows 15 (by decide) ⟨_, hN⟩) _

theorem kernel_val6 (c : Dev nD) (B : Fin 4096) (j : Fin 16384) :
    W4 m ρ c (Proc.devRef .tc main_v5_6) (ix2 B j) = curK m c 6 B.val j.val := by
  refine (congrFun (W4_arr m ρ c 16) _).trans (congrFun ((dat1 (V3 m ρ) c).arrAt_eq_of_cover 16
    (fun i => curK m c 6 (i 0).val (i 1).val) (fun t _ => funext fun y => ?_) fun i => ?_) (ix2 B j))
  · rw [eq_ix2 y]
    exact (blkLvl6 m ρ c t (y 0) (y 1)).trans
      (rowBlock_emb (n := 16384) (curK m c 6) (win1_16.index t) t.val (idxRows 16 (by decide) t) _ _)
  · have hN : (i 0).val / 128 < cfg1.N := Nat.div_lt_of_lt_mul (i 0).isLt
    refine ⟨⟨_, hN⟩, flush1_16 _, ?_⟩
    show i ∈ ((View.whole main_v5_6).slice (win1_16.rect ⟨_, hN⟩)).set
    rw [View.set_slice_whole]
    exact mem_rowBlock (n := 16384) (win1_16.index ⟨_, hN⟩) i (idxRows 16 (by decide) ⟨_, hN⟩) _

end Cert.KernelIdeal.Tree

end
-- ==== Proof.lean ====
import proofs.«140810_j55551107006470_1_alg».proof.Defs
import proofs.«140810_j55551107006470_1_alg».proof.Proof.Gen.Kernel
import proofs.«140810_j55551107006470_1_alg».proof.Proof.Gen.KernelIdeal
import proofs.«140810_j55551107006470_1_alg».proof.Proof.Gen.ReferenceIdeal
import proofs.«140810_j55551107006470_1_alg».proof.Proof.Gen.Pre_finite_inputs
import proofs.«140810_j55551107006470_1_alg».proof.Proof.FrameK
import proofs.«140810_j55551107006470_1_alg».proof.Proof.FrameKI
import proofs.«140810_j55551107006470_1_alg».proof.Proof.RunVals
import proofs.«140810_j55551107006470_1_alg».proof.Proof.RefRunH
import proofs.«140810_j55551107006470_1_alg».proof.Proof.RefB
import proofs.«140810_j55551107006470_1_alg».proof.Proof.KArr
import Idealize.ShloMosaic.Adequacy
import Idealize.ShloMosaic.Init

noncomputable section

namespace Cert.Proof

open Idealize.ShloMosaic Idealize.ShloMosaic.TcCoe Idealize.ShloMosaic.ValueIdx Idealize.SL.Sem
open Cert.ReferenceIdeal.RefTree Cert.KernelIdeal.Tree

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2.2.2.2.2.2.2) (Cert.ReferenceIdeal.RunH.run m ρ)

/-- Both programs compute the specification's running result of every level, index by index. -/
theorem algebraic : Cert.algebraic_KernelIdeal_ReferenceIdeal := by
  intro m ρ m' ρ' _ hagree
  refine ⟨_, _, _, _, _, _, _, Cert.KernelIdeal.GenP.run_vals (F := Ideal) m ρ, ?_⟩
  refine (θ_run Cert.ReferenceIdeal.defs _ _).mono (fun _ h c => ?_) (Cert.ReferenceIdeal.RunH.run m' ρ')
  obtain ⟨h0, h1, h2, h3, h4, h5, h6, hargs⟩ := h c
  obtain ⟨a0, a1, a2, a3, a4, a5⟩ := hagree c
  refine ⟨h0.trans ?_, h1.trans ?_, h2.trans ?_, h3.trans ?_, h4.trans ?_, h5.trans ?_, h6.trans ?_, hargs⟩ <;>
    (rw [a0, a1, a2, a3, a4, a5]; funext i; rw [eq_ix2 i])
  exacts [(ref_res0 _ _ _ _ _ _ _ _).trans (kernel_val0 m ρ c _ _).symm,
    (ref_res1 _ _ _ _ _ _ _ _).trans (kernel_val1 m ρ c _ _).symm,
    (ref_res2 _ _ _ _ _ _ _ _).trans (kernel_val2 m ρ c _ _).symm,
    (ref_res3 _ _ _ _ _ _ _ _).trans (kernel_val3 m ρ c _ _).symm,
    (ref_res4 _ _ _ _ _ _ _ _).trans (kernel_val4 m ρ c _ _).symm,
    (ref_res5 _ _ _ _ _ _ _ _).trans (kernel_val5 m ρ c _ _).symm,
    (ref_res6 _ _ _ _ _ _ _ _).trans (kernel_val6 m ρ c _ _).symm]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
